-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S800000x16 : Shape := ⟨2, ![800000, 16]⟩
abbrev S64x128 : Shape := ⟨2, ![64, 128]⟩
abbrev S128 : Shape := ⟨1, ![128]⟩
abbrev S3x16x128 : Shape := ⟨3, ![3, 16, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S3 : Shape := ⟨1, ![3]⟩
abbrev S128x16 : Shape := ⟨2, ![128, 16]⟩
abbrev S16 : Shape := ⟨1, ![16]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x16x128 : S_.BroadcastsInDim S3x16x128 (![] : Fin 0 → Fin S3x16x128.rank)
  reducesTo_S3x16x128_S_d0_1_2 : S3x16x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3 : S_.BroadcastsInDim S3 (![] : Fin 0 → Fin S3.rank)
  reducesTo_S3_S_d0 : S3.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_arg16 : FVec F S16 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : IVec S1x800000 32 := (extractStridedSlice S1x800000 ![0, 0] · slices_S2x800000_S1x800000_0_0) main_arg1
  let main_v75 : IVec S800000 32 := shapeCast S800000 main_v74 shapeCasts_S1x800000_S800000
  let main_c_28 : IVec S_ 32 := constantI S_ 32 0#32
  let main_v76 : IVec S800000 32 := broadcastInDim S800000 ![] bcast_S_S800000 main_c_28
  let main_v77 : IVec S800000 1 := cmpi .sge main_v75 main_v76
  let main_c_29 : IVec S_ 1 := constantI S_ 1 1#1
  let main_v78 : IVec S_ 1 := (fun x v => Host.reduce IntOp.andi x v reducesTo_S800000_S_d0 h_S_) main_v77 main_c_29
  let main_v79 : IVec S_ 1 := andi main_v73 main_v78
  let main_v80 : IVec S1x800000 32 := (extractStridedSlice S1x800000 ![0, 0] · slices_S2x800000_S1x800000_0_0) main_arg1
  let main_v81 : IVec S800000 32 := shapeCast S800000 main_v80 shapeCasts_S1x800000_S800000
  let main_c_30 : IVec S_ 32 := constantI S_ 32 50000#32
  let main_v82 : IVec S800000 32 := broadcastInDim S800000 ![] bcast_S_S800000 main_c_30
  let main_v83 : IVec S800000 1 := cmpi .slt main_v81 main_v82
  let main_c_31 : IVec S_ 1 := constantI S_ 1 1#1
  let main_v84 : IVec S_ 1 := (fun x v => Host.reduce IntOp.andi x v reducesTo_S800000_S_d0 h_S_) main_v83 main_c_31
  let main_v85 : IVec S_ 1 := andi main_v79 main_v84
  main_v85

def fn_part3 {F : FTy → Type} [FloatOps F] (main_arg1 : IVec S2x800000 32) (main_arg13 : FVec F S3x128 .f32) (main_arg14 : FVec F S3x128 .f32) (main_arg15 : FVec F S128x16 .f32) (main_arg16 : FVec F S16 .f32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg14
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S128x16 .f32 := Host.absf main_arg15
  let main_cst_24 : FVec F S_ .f32 := constant S_ .f32 0x7F800000#32
  let main_v65 : FVec F S128x16 .f32 := broadcastInDim S128x16 ![] bcast_S_S128x16 main_cst_24
  let main_v66 : IVec S128x16 1 := cmpf .olt main_v64 main_v65
  let main_c_25 : IVec S_ 1 := constantI S_ 1 1#1
  let main_v67 : IVec S_ 1 := (fun x v => Host.reduce IntOp.andi x v reducesTo_S128x16_S_d0_1 h_S_) main_v66 main_c_25
  fn_part4 (F := F) main_arg1 main_arg16 main_v63 main_v67

def fn_part2 {F : FTy → Type} [FloatOps F] (main_arg1 : IVec S2x800000 32) (main_arg9 : FVec F S3x256 .f32) (main_arg10 : FVec F S3x256x128 .f32) (main_arg11 : FVec F S3x128 .f32) (main_arg12 : FVec F S3 .f32) (main_arg13 : FVec F S3x128 .f32) (main_arg14 : FVec F S3x128 .f32) (main_arg15 : FVec F S128x16 .f32) (main_arg16 : FVec F S16 .f32) (main_v33 : IVec S_ 1) : IVec S_ 1 :=
  let main_v34 : FVec F S3x256 .f32 := Host.absf main_arg9
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x128 .f32 := Host.absf main_arg10
  let main_cst_14 : FVec F S_ .f32 := constant S_ .f32 0x7F800000#32
  let main_v40 : FVec F S3x256x128 .f32 := broadcastInDim S3x256x128 ![] bcast_S_S3x256x128 main_cst_14
  let main_v41 : IVec S3x256x128 1 := cmpf .olt main_v39 main_v40
  let main_c_15 : IVec S_ 1 := constantI S_ 1 1#1
  let main_v42 : IVec S_ 1 := (fun x v => Host.reduce IntOp.andi x v reducesTo_S3x256x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3 .f32 := Host.absf main_arg12
  let main_cst_18 : FVec F S_ .f32 := constant S_ .f32 0x7F800000#32
  let main_v50 : FVec F S3 .f32 := broadcastInDim S3 ![] bcast_S_S3 main_cst_18
  fn_part3 (F := F) main_arg1 main_arg13 main_arg14 main_arg15 main_arg16 main_v48 main_v49 main_v50

def fn_part1 {F : FTy → Type} [FloatOps F] (main_arg1 : IVec S2x800000 32) (main_arg6 : FVec F S3x16x128 .f32) (main_arg7 : FVec F S3x128 .f32) (main_arg8 : FVec F S3x128x256 .f32) (main_arg9 : FVec F S3x256 .f32) (main_arg10 : FVec F S3x256x128 .f32) (main_arg11 : FVec F S3x128 .f32) (main_arg12 : FVec F S3 .f32) (main_arg13 : FVec F S3x128 .f32) (main_arg14 : FVec F S3x128 .f32) (main_arg15 : FVec F S128x16 .f32) (main_arg16 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x16x128 .f32 := Host.absf main_arg6
  let main_cst_6 : FVec F S_ .f32 := constant S_ .f32 0x7F800000#32
  let main_v20 : FVec F S3x16x128 .f32 := broadcastInDim S3x16x128 ![] bcast_S_S3x16x128 main_cst_6
  let main_v21 : IVec S3x16x128 1 := cmpf .olt main_v19 main_v20
  let main_c_7 : IVec S_ 1 := constantI S_ 1 1#1
  let main_v22 : IVec S_ 1 := (fun x v => Host.reduce IntOp.andi x v reducesTo_S3x16x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x256 .f32 := Host.absf main_arg8
  let main_cst_10 : FVec F S_ .f32 := constant S_ .f32 0x7F800000#32
  let main_v30 : FVec F S3x128x256 .f32 := broadcastInDim S3x128x256 ![] bcast_S_S3x128x256 main_cst_10
  let main_v31 : IVec S3x128x256 1 := cmpf .olt main_v29 main_v30
  let main_c_11 : IVec S_ 1 := constantI S_ 1 1#1
  let main_v32 : IVec S_ 1 := (fun x v => Host.reduce IntOp.andi x v reducesTo_S3x128x256_S_d0_1_2 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S50000x64 .f32) (main_arg1 : IVec S2x800000 32) (main_arg2 : IVec S50000 32) (main_arg3 : FVec F S800000x16 .f32) (main_arg4 : FVec F S64x128 .f32) (main_arg5 : FVec F S128 .f32) (main_arg6 : FVec F S3x16x128 .f32) (main_arg7 : FVec F S3x128 .f32) (main_arg8 : FVec F S3x128x256 .f32) (main_arg9 : FVec F S3x256 .f32) (main_arg10 : FVec F S3x256x128 .f32) (main_arg11 : FVec F S3x128 .f32) (main_arg12 : FVec F S3 .f32) (main_arg13 : FVec F S3x128 .f32) (main_arg14 : FVec F S3x128 .f32) (main_arg15 : FVec F S128x16 .f32) (main_arg16 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg3
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S800000x16 : Shape := ⟨2, ![800000, 16]⟩
abbrev S64x128 : Shape := ⟨2, ![64, 128]⟩
abbrev S128 : Shape := ⟨1, ![128]⟩
abbrev S3x16x128 : Shape := ⟨3, ![3, 16, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S3 : Shape := ⟨1, ![3]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x16x128 : Shape := ⟨3, ![1, 16, 128]⟩
abbrev S16x128 : Shape := ⟨2, ![16, 128]⟩
abbrev S10000x16 : Shape := ⟨2, ![10000, 16]⟩
abbrev S10000x128 : Shape := ⟨2, ![10000, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S5000x256 : Shape := ⟨2, ![5000, 256]⟩
abbrev S50000x1 : Shape := ⟨2, ![50000, 1]⟩
abbrev S128x128 : Shape := ⟨2, ![128, 128]⟩
abbrev S128x1 : Shape := ⟨2, ![128, 1]⟩
abbrev S1x16 : Shape := ⟨2, ![1, 16]⟩

abbrev nBuf : Space → Nat
  | .hbm => 251
  | .vmem => 91
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S800000x16, .f32⟩
  | 4 => ⟨S64x128, .f32⟩
  | 5 => ⟨S128, .f32⟩
  | 6 => ⟨S3x16x128, .f32⟩
  | 7 => ⟨S3x128, .f32⟩
  | 8 => ⟨S3x128x256, .f32⟩
  | 9 => ⟨S3x256, .f32⟩
  | 10 => ⟨S3x256x128, .f32⟩
  | 11 => ⟨S3x128, .f32⟩
  | 12 => ⟨S3, .f32⟩
  | 13 => ⟨S3x128, .f32⟩
  | 14 => ⟨S3x128, .f32⟩
  | 15 => ⟨S128x16, .f32⟩
  | 16 => ⟨S16, .f32⟩
  | 17 => ⟨S1x800000, .i32⟩
  | 18 => ⟨S800000, .i32⟩
  | 19 => ⟨S1x800000, .i32⟩
  | 20 => ⟨S800000, .i32⟩
  | 21 => ⟨S1x128, .f32⟩
  | 22 => ⟨S50000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S1, .i32⟩
  | 32 => ⟨S_, .i32⟩
  | 33 => ⟨S800000x1, .i32⟩
  | 34 => ⟨S800000x1, .i1⟩
  | 35 => ⟨S1x1, .i32⟩
  | 36 => ⟨S800000x1, .i32⟩
  | 37 => ⟨S800000x1, .i1⟩
  | 38 => ⟨S800000x1, .i1⟩
  | 39 => ⟨S_, .i1⟩
  | 40 => ⟨S800000, .i1⟩
  | 41 => ⟨S800000x128, .f32⟩
  | 42 => ⟨S800000x128, .i1⟩
  | 43 => ⟨S_, .f32⟩
  | 44 => ⟨S800000x128, .f32⟩
  | 45 => ⟨S800000x128, .f32⟩
  | 46 => ⟨S1x16x128, .f32⟩
  | 47 => ⟨S16x128, .f32⟩
  | 48 => ⟨S1x128, .f32⟩
  | 49 => ⟨S128, .f32⟩
  | 50 => ⟨S1x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S1, .f32⟩
  | 57 => ⟨S_, .f32⟩
  | 58 => ⟨S1x128x256, .f32⟩
  | 59 => ⟨S128x256, .f32⟩
  | 60 => ⟨S1x256, .f32⟩
  | 61 => ⟨S256, .f32⟩
  | 62 => ⟨S1x256x128, .f32⟩
  | 63 => ⟨S256x128, .f32⟩
  | 64 => ⟨S1x128, .f32⟩
  | 65 => ⟨S128, .f32⟩
  | 66 => ⟨S1x1, .f32⟩
  | 67 => ⟨S1x256, .f32⟩
  | 68 => ⟨S1x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S1x128, .f32⟩
  | 90 => ⟨S1x128, .f32⟩
  | 91 => ⟨S1x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S1, .i32⟩
  | 102 => ⟨S_, .i32⟩
  | 103 => ⟨S800000x1, .i32⟩
  | 104 => ⟨S800000x1, .i1⟩
  | 105 => ⟨S1x1, .i32⟩
  | 106 => ⟨S800000x1, .i32⟩
  | 107 => ⟨S800000x1, .i1⟩
  | 108 => ⟨S800000x1, .i1⟩
  | 109 => ⟨S_, .i1⟩
  | 110 => ⟨S800000, .i1⟩
  | 111 => ⟨S800000x128, .f32⟩
  | 112 => ⟨S800000x128, .i1⟩
  | 113 => ⟨S_, .f32⟩
  | 114 => ⟨S800000x128, .f32⟩
  | 115 => ⟨S800000x128, .f32⟩
  | 116 => ⟨S1x16x128, .f32⟩
  | 117 => ⟨S16x128, .f32⟩
  | 118 => ⟨S1x128, .f32⟩
  | 119 => ⟨S128, .f32⟩
  | 120 => ⟨S1x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S1, .f32⟩
  | 127 => ⟨S_, .f32⟩
  | _ => ⟨S50000x64, .f32⟩

abbrev hbmTy0_1 (i : Nat) : BufTy := match i % 128 with
  | 0 => ⟨S1x128x256, .f32⟩
  | 1 => ⟨S128x256, .f32⟩
  | 2 => ⟨S1x256, .f32⟩
  | 3 => ⟨S256, .f32⟩
  | 4 => ⟨S1x256x128, .f32⟩
  | 5 => ⟨S256x128, .f32⟩
  | 6 => ⟨S1x128, .f32⟩
  | 7 => ⟨S128, .f32⟩
  | 8 => ⟨S1x1, .f32⟩
  | 9 => ⟨S1x256, .f32⟩
  | 10 => ⟨S1x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S50000x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S1x128, .f32⟩
  | 32 => ⟨S1x128, .f32⟩
  | 33 => ⟨S1x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S1, .i32⟩
  | 44 => ⟨S_, .i32⟩
  | 45 => ⟨S800000x1, .i32⟩
  | 46 => ⟨S800000x1, .i1⟩
  | 47 => ⟨S1x1, .i32⟩
  | 48 => ⟨S800000x1, .i32⟩
  | 49 => ⟨S800000x1, .i1⟩
  | 50 => ⟨S800000x1, .i1⟩
  | 51 => ⟨S_, .i1⟩
  | 52 => ⟨S800000, .i1⟩
  | 53 => ⟨S800000x128, .f32⟩
  | 54 => ⟨S800000x128, .i1⟩
  | 55 => ⟨S_, .f32⟩
  | 56 => ⟨S800000x128, .f32⟩
  | 57 => ⟨S800000x128, .f32⟩
  | 58 => ⟨S1x16x128, .f32⟩
  | 59 => ⟨S16x128, .f32⟩
  | 60 => ⟨S1x128, .f32⟩
  | 61 => ⟨S128, .f32⟩
  | 62 => ⟨S1x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1, .f32⟩
  | 69 => ⟨S_, .f32⟩
  | 70 => ⟨S1x128x256, .f32⟩
  | 71 => ⟨S128x256, .f32⟩
  | 72 => ⟨S1x256, .f32⟩
  | 73 => ⟨S256, .f32⟩
  | 74 => ⟨S1x256x128, .f32⟩
  | 75 => ⟨S256x128, .f32⟩
  | 76 => ⟨S1x128, .f32⟩
  | 77 => ⟨S128, .f32⟩
  | 78 => ⟨S1x1, .f32⟩
  | 79 => ⟨S1x256, .f32⟩
  | 80 => ⟨S1x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S128, .f32⟩
  | 93 => ⟨S_, .f32⟩
  | 94 => ⟨S128, .f32⟩
  | 95 => ⟨S128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S1x128, .f32⟩
  | 102 => ⟨S1x128, .f32⟩
  | 103 => ⟨S1x128, .f32⟩
  | 104 => ⟨S50000x128, .f32⟩
  | 105 => ⟨S_, .f32⟩
  | 106 => ⟨S50000, .f32⟩
  | 107 => ⟨S_, .f32⟩
  | 108 => ⟨S128, .f32⟩
  | 109 => ⟨S50000x1, .i32⟩
  | 110 => ⟨S128, .f32⟩
  | 111 => ⟨S_, .f32⟩
  | 112 => ⟨S128x128, .f32⟩
  | 113 => ⟨S50000x1, .i32⟩
  | 114 => ⟨S128x128, .f32⟩
  | 115 => ⟨S_, .f32⟩
  | 116 => ⟨S128, .f32⟩
  | 117 => ⟨S128, .f32⟩
  | 118 => ⟨S128x1, .f32⟩
  | 119 => ⟨S128x128, .f32⟩
  | 120 => ⟨S128x128, .f32⟩
  | 121 => ⟨S1x16, .f32⟩
  | 122 => ⟨S128x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S10000x16, .f32⟩
  | .local _ .vmem, ⟨7, _⟩ => ⟨S10000x16, .f32⟩
  | .local _ .vmem, ⟨8, _⟩ => ⟨S10000x128, .f32⟩
  | .local _ .vmem, ⟨9, _⟩ => ⟨S10000x128, .f32⟩
  | .local _ .vmem, ⟨10, _⟩ => ⟨S16x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x1, .f32⟩
  | .local _ .vmem, ⟨19, _⟩ => ⟨S128x256, .f32⟩
  | .local _ .vmem, ⟨20, _⟩ => ⟨S1x256, .f32⟩
  | .local _ .vmem, ⟨21, _⟩ => ⟨S256x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S10000x16, .f32⟩
  | .local _ .vmem, ⟨34, _⟩ => ⟨S10000x16, .f32⟩
  | .local _ .vmem, ⟨35, _⟩ => ⟨S10000x128, .f32⟩
  | .local _ .vmem, ⟨36, _⟩ => ⟨S10000x128, .f32⟩
  | .local _ .vmem, ⟨37, _⟩ => ⟨S16x128, .f32⟩
  | .local _ .vmem, ⟨38, _⟩ => ⟨S1x128, .f32⟩
  | .local _ .vmem, ⟨39, _⟩ => ⟨S10000x128, .f32⟩
  | .local _ .vmem, ⟨40, _⟩ => ⟨S10000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x1, .f32⟩
  | .local _ .vmem, ⟨46, _⟩ => ⟨S128x256, .f32⟩
  | .local _ .vmem, ⟨47, _⟩ => ⟨S1x256, .f32⟩
  | .local _ .vmem, ⟨48, _⟩ => ⟨S256x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S10000x16, .f32⟩
  | .local _ .vmem, ⟨61, _⟩ => ⟨S10000x16, .f32⟩
  | .local _ .vmem, ⟨62, _⟩ => ⟨S10000x128, .f32⟩
  | .local _ .vmem, ⟨63, _⟩ => ⟨S10000x128, .f32⟩
  | .local _ .vmem, ⟨64, _⟩ => ⟨S16x128, .f32⟩
  | .local _ .vmem, ⟨65, _⟩ => ⟨S1x128, .f32⟩
  | .local _ .vmem, ⟨66, _⟩ => ⟨S10000x128, .f32⟩
  | .local _ .vmem, ⟨67, _⟩ => ⟨S10000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S1x1, .f32⟩
  | .local _ .vmem, ⟨73, _⟩ => ⟨S128x256, .f32⟩
  | .local _ .vmem, ⟨74, _⟩ => ⟨S1x256, .f32⟩
  | .local _ .vmem, ⟨75, _⟩ => ⟨S256x128, .f32⟩
  | .local _ .vmem, ⟨76, _⟩ => ⟨S1x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S5000x128, .f32⟩
  | .local _ .vmem, ⟨86, _⟩ => ⟨S5000x128, .f32⟩
  | .local _ .vmem, ⟨87, _⟩ => ⟨S128x128, .f32⟩
  | .local _ .vmem, ⟨88, _⟩ => ⟨S128x16, .f32⟩
  | .local _ .vmem, ⟨89, _⟩ => ⟨S1x16, .f32⟩
  | .local _ .vmem, ⟨90, _⟩ => ⟨S128x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_0 : Ref sig .tc := ⟨.hbm, 70, rfl⟩
abbrev main_v30 : Ref sig .tc := ⟨.hbm, 71, rfl⟩
abbrev main_cst_1 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_2 : Ref sig .tc := ⟨.hbm, 79, rfl⟩
abbrev main_v37 : Ref sig .tc := ⟨.hbm, 80, rfl⟩
abbrev main_cst_3 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_v14 : Ref sig .tc := ⟨.hbm, 112, rfl⟩
abbrev main_call1_cst : Ref sig .tc := ⟨.hbm, 113, rfl⟩
abbrev main_call1_v15 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_cst_4 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_5 : Ref sig .tc := ⟨.hbm, 140, rfl⟩
abbrev main_v73 : Ref sig .tc := ⟨.hbm, 141, rfl⟩
abbrev main_cst_6 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_cst_7 : Ref sig .tc := ⟨.hbm, 149, rfl⟩
abbrev main_v80 : Ref sig .tc := ⟨.hbm, 150, rfl⟩
abbrev main_cst_8 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_call2_c : Ref sig .tc := ⟨.hbm, 163, rfl⟩
abbrev main_call2_v0 : Ref sig .tc := ⟨.hbm, 164, rfl⟩
abbrev main_call2_v1 : Ref sig .tc := ⟨.hbm, 165, rfl⟩
abbrev main_call2_c_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_c_1 : Ref sig .tc := ⟨.hbm, 171, rfl⟩
abbrev main_call2_c_2 : Ref sig .tc := ⟨.hbm, 172, rfl⟩
abbrev main_call2_v6 : Ref sig .tc := ⟨.hbm, 173, rfl⟩
abbrev main_call2_v7 : Ref sig .tc := ⟨.hbm, 174, rfl⟩
abbrev main_call2_v8 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_c_3 : Ref sig .tc := ⟨.hbm, 179, rfl⟩
abbrev main_call2_v12 : Ref sig .tc := ⟨.hbm, 180, rfl⟩
abbrev main_call2_v13 : Ref sig .tc := ⟨.hbm, 181, rfl⟩
abbrev main_call2_v14 : Ref sig .tc := ⟨.hbm, 182, rfl⟩
abbrev main_call2_cst : Ref sig .tc := ⟨.hbm, 183, rfl⟩
abbrev main_call2_v15 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_cst_9 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_cst_10 : Ref sig .tc := ⟨.hbm, 210, rfl⟩
abbrev main_v116 : Ref sig .tc := ⟨.hbm, 211, rfl⟩
abbrev main_cst_11 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_cst_12 : Ref sig .tc := ⟨.hbm, 219, rfl⟩
abbrev main_v123 : Ref sig .tc := ⟨.hbm, 220, rfl⟩
abbrev main_cst_13 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_cst_14 : Ref sig .tc := ⟨.hbm, 233, rfl⟩
abbrev main_v135 : Ref sig .tc := ⟨.hbm, 234, rfl⟩
abbrev main_cst_15 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_16 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_17 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg4_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg5_0 : Ref sig .tc := ⟨.vmem, 75, rfl⟩
abbrev cc8_stg6_0 : Ref sig .tc := ⟨.vmem, 76, rfl⟩
abbrev cc8_stg7_0 : Ref sig .tc := ⟨.vmem, 77, rfl⟩
abbrev cc8_stg7_1 : Ref sig .tc := ⟨.vmem, 78, rfl⟩
abbrev cc9_stg0_0 : Ref sig .tc := ⟨.vmem, 79, rfl⟩
abbrev cc9_stg0_1 : Ref sig .tc := ⟨.vmem, 80, rfl⟩
abbrev cc9_stg1_0 : Ref sig .tc := ⟨.vmem, 81, rfl⟩
abbrev cc9_stg2_0 : Ref sig .tc := ⟨.vmem, 82, rfl⟩
abbrev cc9_stg3_0 : Ref sig .tc := ⟨.vmem, 83, rfl⟩
abbrev cc9_stg4_0 : Ref sig .tc := ⟨.vmem, 84, rfl⟩
abbrev cc9_stg5_0 : Ref sig .tc := ⟨.vmem, 85, rfl⟩
abbrev cc9_stg5_1 : Ref sig .tc := ⟨.vmem, 86, rfl⟩
abbrev cc10_stg0_0 : Ref sig .tc := ⟨.vmem, 87, rfl⟩
abbrev cc10_stg1_0 : Ref sig .tc := ⟨.vmem, 88, rfl⟩
abbrev cc10_stg2_0 : Ref sig .tc := ⟨.vmem, 89, rfl⟩
abbrev cc10_stg3_0 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem4_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem3_0 : DmaSem sig := 65
abbrev cc7_sem4_0 : DmaSem sig := 66
abbrev cc7_sem4_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem5_0 : DmaSem sig := 75
abbrev cc8_sem6_0 : DmaSem sig := 76
abbrev cc8_sem7_0 : DmaSem sig := 77
abbrev cc8_sem7_1 : DmaSem sig := 78
abbrev cc9_sem0_0 : DmaSem sig := 79
abbrev cc9_sem0_1 : DmaSem sig := 80
abbrev cc9_sem1_0 : DmaSem sig := 81
abbrev cc9_sem2_0 : DmaSem sig := 82
abbrev cc9_sem3_0 : DmaSem sig := 83
abbrev cc9_sem4_0 : DmaSem sig := 84
abbrev cc9_sem5_0 : DmaSem sig := 85
abbrev cc9_sem5_1 : DmaSem sig := 86
abbrev cc10_sem0_0 : DmaSem sig := 87
abbrev cc10_sem1_0 : DmaSem sig := 88
abbrev cc10_sem2_0 : DmaSem sig := 89
abbrev cc10_sem3_0 : DmaSem sig := 90

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S16x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S256x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S128x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x16 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x16 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x16 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S50000x128 : S_.BroadcastsInDim S50000x128 (![] : Fin 0 → Fin S50000x128.rank)
  slices_S3_S1_0 : S3.Slices ![0] S1
  shapeCasts_S1_S_ : S1.ShapeCasts S_
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  slices_S3x256x128_S1x256x128_0_0_0 : S3x256x128.Slices ![0, 0, 0] S1x256x128
  shapeCasts_S1x256x128_S256x128 : S1x256x128.ShapeCasts S256x128
  shapeCasts_S_S1x1 : S_.ShapeCasts S1x1
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S5000x128_S5000x128 : S5000x128.ShapeCasts S5000x128
  broadcasts_S1x1_S5000x128 : S1x1.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x16x128_S1x16x128_1_0_0 : S3x16x128.Slices ![1, 0, 0] S1x16x128
  slices_S3x128_S1x128_1_0 : S3x128.Slices ![1, 0] S1x128
  slices_S3_S1_1 : S3.Slices ![1] S1
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x16x128_S1x16x128_2_0_0 : S3x16x128.Slices ![2, 0, 0] S1x16x128
  slices_S3x128_S1x128_2_0 : S3x128.Slices ![2, 0] S1x128
  slices_S3_S1_2 : S3.Slices ![2] S1
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  bcast_S_S50000 : S_.BroadcastsInDim S50000 (![] : Fin 0 → Fin S50000.rank)
  bcast_S50000_S50000x1_0 : S50000.BroadcastsInDim S50000x1 (![0] : Fin 1 → Fin S50000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S16_S1x16 : S16.ShapeCasts S1x16
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  dot_S10000x16_S16x128_S10000x128_1_0_0_1_n_n_wf : DotDims.WF S10000x16 S16x128 S10000x128 [1] [0] [0] [1] [] []
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x16_S128x16_1_0_0_1_n_n_wf : DotDims.WF S128x128 S128x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S800000x16.size a
  hwx1_0 : ∀ i : grid1.Coords, EltTy.bits .f32 = 32 ∨ (Rect.block (s := S800000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S800000x128.size a
  hwx1_1 : ∀ i : grid1.Coords, EltTy.bits .f32 = 32 ∨ (Rect.block (s := S800000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S800000x128.size a
  hwx1_4 : ∀ i : grid1.Coords, EltTy.bits .f32 = 32 ∨ (Rect.block (s := S800000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S800000x16.size a
  hwx4_0 : ∀ i : grid4.Coords, EltTy.bits .f32 = 32 ∨ (Rect.block (s := S800000x16) S10000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S800000x128.size a
  hwx4_1 : ∀ i : grid4.Coords, EltTy.bits .f32 = 32 ∨ (Rect.block (s := S800000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x128.size a ≤ S16x128.size a
  hwx4_2 : ∀ i : grid4.Coords, EltTy.bits .f32 = 32 ∨ (Rect.block (s := S16x128) S16x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S800000x128.size a
  hwx4_4 : ∀ i : grid4.Coords, EltTy.bits .f32 = 32 ∨ (Rect.block (s := S800000x128) S10000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x256.size a ≤ S128x256.size a
  hwx5_3 : ∀ i : grid5.Coords, EltTy.bits .f32 = 32 ∨ (Rect.block (s := S128x256) S128x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .f32 = 32 ∨ (Rect.block (s := S256x128) S256x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x16.size a ≤ S800000x16.size a
  hwx7_0 : ∀ i : grid7.Coords, EltTy.bits .f32 = 32 ∨ (Rect.block (s := S800000x16) S10000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S800000x128.size a
  hwx7_1 : ∀ i : grid7.Coords, EltTy.bits .f32 = 32 ∨ (Rect.block (s := S800000x128) S10000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16x128.size a ≤ S16x128.size a
  hwx7_2 : ∀ i : grid7.Coords, EltTy.bits .f32 = 32 ∨ (Rect.block (s := S16x128) S16x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x128.size a ≤ S800000x128.size a
  hwx7_4 : ∀ i : grid7.Coords, EltTy.bits .f32 = 32 ∨ (Rect.block (s := S800000x128) S10000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x256.size a ≤ S128x256.size a
  hwx8_3 : ∀ i : grid8.Coords, EltTy.bits .f32 = 32 ∨ (Rect.block (s := S128x256) S128x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S256x128.size a ≤ S256x128.size a
  hwx8_5 : ∀ i : grid8.Coords, EltTy.bits .f32 = 32 ∨ (Rect.block (s := S256x128) S256x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S50000x128.size a
  hwx8_7 : ∀ i : grid8.Coords, EltTy.bits .f32 = 32 ∨ (Rect.block (s := S50000x128) S5000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S128x128.size a ≤ S128x128.size a
  hwx10_0 : ∀ i : grid10.Coords, EltTy.bits .f32 = 32 ∨ (Rect.block (s := S128x128) S128x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x16.size a ≤ S128x16.size a
  hwx10_1 : ∀ i : grid10.Coords, EltTy.bits .f32 = 32 ∨ (Rect.block (s := S128x16) S128x16.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x16.size a ≤ S1x16.size a
  hwx10_2 : ∀ i : grid10.Coords, EltTy.bits .f32 = 32 ∨ (Rect.block (s := S1x16) S1x16.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x16.size a ≤ S128x16.size a
  hwx10_3 : ∀ i : grid10.Coords, EltTy.bits .f32 = 32 ∨ (Rect.block (s := S128x16) S128x16.size (cc10_transform_3 i) (hinb10_3 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg3) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S16x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S10000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v48) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S128x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v71) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v72) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v72) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v91) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_arg3) S10000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S10000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v94) S16x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v98) S10000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v91) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v112) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v105) S128x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v113) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v109) S256x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v114) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v115) S5000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v115) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v130) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v131) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v132) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v133) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v134) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v146) S128x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg15) S128x16.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v147) S1x16.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v148) S128x16.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S800000x16 : Shape := ⟨2, ![800000, 16]⟩
abbrev S64x128 : Shape := ⟨2, ![64, 128]⟩
abbrev S128 : Shape := ⟨1, ![128]⟩
abbrev S3x16x128 : Shape := ⟨3, ![3, 16, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S3 : Shape := ⟨1, ![3]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S1x16x128 : Shape := ⟨3, ![1, 16, 128]⟩
abbrev S16x128 : Shape := ⟨2, ![16, 128]⟩
abbrev S800000x128 : Shape := ⟨2, ![800000, 128]⟩
abbrev S_ : Shape := ⟨0, ![]⟩
abbrev S800000x1 : Shape := ⟨2, ![800000, 1]⟩
abbrev S1 : Shape := ⟨1, ![1]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S50000x1 : Shape := ⟨2, ![50000, 1]⟩
abbrev S128x128 : Shape := ⟨2, ![128, 128]⟩
abbrev S128x1 : Shape := ⟨2, ![128, 1]⟩
abbrev S1x16 : Shape := ⟨2, ![1, 16]⟩

abbrev nBuf : Space → Nat
  | .hbm => 309
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S800000x16, .f32⟩
  | 4 => ⟨S64x128, .f32⟩
  | 5 => ⟨S128, .f32⟩
  | 6 => ⟨S3x16x128, .f32⟩
  | 7 => ⟨S3x128, .f32⟩
  | 8 => ⟨S3x128x256, .f32⟩
  | 9 => ⟨S3x256, .f32⟩
  | 10 => ⟨S3x256x128, .f32⟩
  | 11 => ⟨S3x128, .f32⟩
  | 12 => ⟨S3, .f32⟩
  | 13 => ⟨S3x128, .f32⟩
  | 14 => ⟨S3x128, .f32⟩
  | 15 => ⟨S128x16, .f32⟩
  | 16 => ⟨S16, .f32⟩
  | 17 => ⟨S1x800000, .i32⟩
  | 18 => ⟨S800000, .i32⟩
  | 19 => ⟨S1x800000, .i32⟩
  | 20 => ⟨S800000, .i32⟩
  | 21 => ⟨S50000x128, .f32⟩
  | 22 => ⟨S1x128, .f32⟩
  | 23 => ⟨S50000x128, .f32⟩
  | 24 => ⟨S50000x128, .f32⟩
  | 25 => ⟨S1x16x128, .f32⟩
  | 26 => ⟨S16x128, .f32⟩
  | 27 => ⟨S800000x128, .f32⟩
  | 28 => ⟨S1x128, .f32⟩
  | 29 => ⟨S128, .f32⟩
  | 30 => ⟨S1x128, .f32⟩
  | 31 => ⟨S800000x128, .f32⟩
  | 32 => ⟨S800000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S800000x128, .f32⟩
  | 43 => ⟨S_, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S1, .f32⟩
  | 51 => ⟨S_, .f32⟩
  | 52 => ⟨S_, .f32⟩
  | 53 => ⟨S_, .f32⟩
  | 54 => ⟨S50000x128, .f32⟩
  | 55 => ⟨S50000x128, .f32⟩
  | 56 => ⟨S50000x128, .f32⟩
  | 57 => ⟨S1x128x256, .f32⟩
  | 58 => ⟨S128x256, .f32⟩
  | 59 => ⟨S50000x256, .f32⟩
  | 60 => ⟨S1x256, .f32⟩
  | 61 => ⟨S256, .f32⟩
  | 62 => ⟨S1x256, .f32⟩
  | 63 => ⟨S50000x256, .f32⟩
  | 64 => ⟨S50000x256, .f32⟩
  | 65 => ⟨S_, .f32⟩
  | 66 => ⟨S50000x256, .f32⟩
  | 67 => ⟨S50000x256, .f32⟩
  | 68 => ⟨S1x256x128, .f32⟩
  | 69 => ⟨S256x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S128, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S1x16x128, .f32⟩
  | 114 => ⟨S16x128, .f32⟩
  | 115 => ⟨S800000x128, .f32⟩
  | 116 => ⟨S1x128, .f32⟩
  | 117 => ⟨S128, .f32⟩
  | 118 => ⟨S1x128, .f32⟩
  | 119 => ⟨S800000x128, .f32⟩
  | 120 => ⟨S800000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x64, .f32⟩

abbrev hbmTy0_1 (i : Nat) : BufTy := match i % 128 with
  | 0 => ⟨S800000x1, .i32⟩
  | 1 => ⟨S800000x128, .f32⟩
  | 2 => ⟨S800000x128, .f32⟩
  | 3 => ⟨S_, .f32⟩
  | 4 => ⟨S800000x128, .f32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S1, .f32⟩
  | 11 => ⟨S_, .f32⟩
  | 12 => ⟨S_, .f32⟩
  | 13 => ⟨S_, .f32⟩
  | 14 => ⟨S50000x128, .f32⟩
  | 15 => ⟨S50000x128, .f32⟩
  | 16 => ⟨S50000x128, .f32⟩
  | 17 => ⟨S1x128x256, .f32⟩
  | 18 => ⟨S128x256, .f32⟩
  | 19 => ⟨S50000x256, .f32⟩
  | 20 => ⟨S1x256, .f32⟩
  | 21 => ⟨S256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S1x256x128, .f32⟩
  | 29 => ⟨S256x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S_, .f32⟩
  | 37 => ⟨S128, .f32⟩
  | 38 => ⟨S_, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S50000x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S1x16x128, .f32⟩
  | 74 => ⟨S16x128, .f32⟩
  | 75 => ⟨S800000x128, .f32⟩
  | 76 => ⟨S1x128, .f32⟩
  | 77 => ⟨S128, .f32⟩
  | 78 => ⟨S1x128, .f32⟩
  | 79 => ⟨S800000x128, .f32⟩
  | 80 => ⟨S800000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x128, .f32⟩
  | 91 => ⟨S_, .f32⟩
  | 92 => ⟨S800000x128, .f32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S1, .f32⟩
  | 99 => ⟨S_, .f32⟩
  | 100 => ⟨S_, .f32⟩
  | 101 => ⟨S_, .f32⟩
  | 102 => ⟨S50000x128, .f32⟩
  | 103 => ⟨S50000x128, .f32⟩
  | 104 => ⟨S50000x128, .f32⟩
  | 105 => ⟨S1x128x256, .f32⟩
  | 106 => ⟨S128x256, .f32⟩
  | 107 => ⟨S50000x256, .f32⟩
  | 108 => ⟨S1x256, .f32⟩
  | 109 => ⟨S256, .f32⟩
  | 110 => ⟨S1x256, .f32⟩
  | 111 => ⟨S50000x256, .f32⟩
  | 112 => ⟨S50000x256, .f32⟩
  | 113 => ⟨S_, .f32⟩
  | 114 => ⟨S50000x256, .f32⟩
  | 115 => ⟨S50000x256, .f32⟩
  | 116 => ⟨S1x256x128, .f32⟩
  | 117 => ⟨S256x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x64, .f32⟩

abbrev hbmTy0_2 (i : Nat) : BufTy := match i % 128 with
  | 0 => ⟨S128, .f32⟩
  | 1 => ⟨S1x128, .f32⟩
  | 2 => ⟨S50000x128, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S50000, .f32⟩
  | 35 => ⟨S_, .f32⟩
  | 36 => ⟨S128, .f32⟩
  | 37 => ⟨S50000x1, .i32⟩
  | 38 => ⟨S128, .f32⟩
  | 39 => ⟨S_, .f32⟩
  | 40 => ⟨S128x128, .f32⟩
  | 41 => ⟨S50000x1, .i32⟩
  | 42 => ⟨S128x128, .f32⟩
  | 43 => ⟨S_, .f32⟩
  | 44 => ⟨S128, .f32⟩
  | 45 => ⟨S128, .f32⟩
  | 46 => ⟨S128x1, .f32⟩
  | 47 => ⟨S128x128, .f32⟩
  | 48 => ⟨S128x128, .f32⟩
  | 49 => ⟨S128x16, .f32⟩
  | 50 => ⟨S1x16, .f32⟩
  | 51 => ⟨S128x16, .f32⟩
  | 52 => ⟨S128x16, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_cst : Ref sig .tc := ⟨.hbm, 43, rfl⟩
abbrev main_call0_v0 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_2 : Ref sig .tc := ⟨.hbm, 76, rfl⟩
abbrev main_v51 : Ref sig .tc := ⟨.hbm, 77, rfl⟩
abbrev main_cst_3 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_4 : Ref sig .tc := ⟨.hbm, 85, rfl⟩
abbrev main_v58 : Ref sig .tc := ⟨.hbm, 86, rfl⟩
abbrev main_cst_5 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_6 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_7 : Ref sig .tc := ⟨.hbm, 121, rfl⟩
abbrev main_v89 : Ref sig .tc := ⟨.hbm, 122, rfl⟩
abbrev main_v90 : Ref sig .tc := ⟨.hbm, 123, rfl⟩
abbrev main_c_8 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call3_cst : Ref sig .tc := ⟨.hbm, 131, rfl⟩
abbrev main_call3_v0 : Ref sig .tc := ⟨.hbm, 132, rfl⟩
abbrev main_v97 : Ref sig .tc := ⟨.hbm, 133, rfl⟩
abbrev main_cst_9 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_10 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_call4_cst : Ref sig .tc := ⟨.hbm, 153, rfl⟩
abbrev main_call4_v0 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_11 : Ref sig .tc := ⟨.hbm, 164, rfl⟩
abbrev main_v124 : Ref sig .tc := ⟨.hbm, 165, rfl⟩
abbrev main_cst_12 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_13 : Ref sig .tc := ⟨.hbm, 173, rfl⟩
abbrev main_v131 : Ref sig .tc := ⟨.hbm, 174, rfl⟩
abbrev main_cst_14 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_15 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_call5_cst : Ref sig .tc := ⟨.hbm, 198, rfl⟩
abbrev main_call5_v0 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_c_16 : Ref sig .tc := ⟨.hbm, 209, rfl⟩
abbrev main_v162 : Ref sig .tc := ⟨.hbm, 210, rfl⟩
abbrev main_v163 : Ref sig .tc := ⟨.hbm, 211, rfl⟩
abbrev main_c_17 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_call6_cst : Ref sig .tc := ⟨.hbm, 219, rfl⟩
abbrev main_call6_v0 : Ref sig .tc := ⟨.hbm, 220, rfl⟩
abbrev main_v170 : Ref sig .tc := ⟨.hbm, 221, rfl⟩
abbrev main_cst_18 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_19 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_call7_cst : Ref sig .tc := ⟨.hbm, 241, rfl⟩
abbrev main_call7_v0 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_cst_20 : Ref sig .tc := ⟨.hbm, 252, rfl⟩
abbrev main_v197 : Ref sig .tc := ⟨.hbm, 253, rfl⟩
abbrev main_cst_21 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_22 : Ref sig .tc := ⟨.hbm, 261, rfl⟩
abbrev main_v204 : Ref sig .tc := ⟨.hbm, 262, rfl⟩
abbrev main_cst_23 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_24 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_call8_cst : Ref sig .tc := ⟨.hbm, 286, rfl⟩
abbrev main_call8_v0 : Ref sig .tc := ⟨.hbm, 287, rfl⟩
abbrev main_v226 : Ref sig .tc := ⟨.hbm, 288, rfl⟩
abbrev main_cst_25 : Ref sig .tc := ⟨.hbm, 289, rfl⟩
abbrev main_v227 : Ref sig .tc := ⟨.hbm, 290, rfl⟩
abbrev main_cst_26 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_cst_27 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_cst_28 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3_S1_0 : S3.Slices ![0] S1
  shapeCasts_S1_S_ : S1.ShapeCasts S_
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  reducesTo_S50000x128_S128_d0 : S50000x128.ReducesTo [0] S128
  h_S_ : 0 < S_.numel
  bcast_S_S128 : S_.BroadcastsInDim S128 (![] : Fin 0 → Fin S128.rank)
  slices_S3x16x128_S1x16x128_1_0_0 : S3x16x128.Slices ![1, 0, 0] S1x16x128
  slices_S3x128_S1x128_1_0 : S3x128.Slices ![1, 0] S1x128
  slices_S3_S1_1 : S3.Slices ![1] S1
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x16x128_S1x16x128_2_0_0 : S3x16x128.Slices ![2, 0, 0] S1x16x128
  slices_S3x128_S1x128_2_0 : S3x128.Slices ![2, 0] S1x128
  slices_S3_S1_2 : S3.Slices ![2] S1
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  bcast_S_S50000 : S_.BroadcastsInDim S50000 (![] : Fin 0 → Fin S50000.rank)
  bcast_S50000_S50000x1_0 : S50000.BroadcastsInDim S50000x1 (![0] : Fin 1 → Fin S50000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  dot_S50000x64_S64x128_S50000x128_1_0_0_1_n_n_wf : DotDims.WF S50000x64 S64x128 S50000x128 [1] [0] [0] [1] [] []
  dot_S800000x16_S16x128_S800000x128_1_0_0_1_n_n_wf : DotDims.WF S800000x16 S16x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x16_S128x16_1_0_0_1_n_n_wf : DotDims.WF S128x128 S128x16 S128x16 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (a b : ℕ) : Type := FVec Ideal (⟨2, ![a, b]⟩ : Shape) .f32

abbrev Row (a : ℕ) : Type := FVec Ideal (⟨1, ![a]⟩ : Shape) .f32

abbrev zeroW : EReal := Ideal.ofBits .f32 0x00000000#32

abbrev oneW : EReal := Ideal.ofBits .f32 0x3F800000#32

abbrev bnEpsW : EReal := Ideal.ofBits .f32 0x3727C5AC#32

def toRow1 {n : ℕ} (v : Row n) : Mat 1 n := fun i => v (ix1 (i 1))

theorem toRow1_ix2 {n : ℕ} (v : Row n) (z : Fin 1) (j : Fin n) : toRow1 v (ix2 z j) = v (ix1 j) := rfl

def toMat11 (e : FVec Ideal (⟨0, ![]⟩ : Shape) .f32) : Mat 1 1 := fun _ => e ix0

/-- The first projection at a row and a column: x · W + b. -/
def linE (x : Mat 50000 64) (w : Mat 64 128) (b : Mat 1 128) (r : Fin 50000) (j : Fin 128) : EReal :=
  (∑ k : Fin 64, x (ix2 r k) * w (ix2 k j)) + b (ix2 0 j)
def linR (x : Mat 50000 64) (w : Mat 64 128) (b : Mat 1 128) : Mat 50000 128 := fun i => linE x w b (i 0) (i 1)
theorem linR_ix2 (x : Mat 50000 64) (w : Mat 64 128) (b : Mat 1 128) (r : Fin 50000) (j : Fin 128) :
    linR x w b (ix2 r j) = linE x w b r j := rfl

/-- The edge message: max (ea · W + b + hs, 0). -/
def msgE (ea : Mat 800000 16) (hs : Mat 800000 128) (w : Mat 16 128) (b : Mat 1 128) (e : Fin 800000) (j : Fin 128) : EReal :=
  max (((∑ k : Fin 16, ea (ix2 e k) * w (ix2 k j)) + b (ix2 0 j)) + hs (ix2 e j)) zeroW
def msgR (ea : Mat 800000 16) (hs : Mat 800000 128) (w : Mat 16 128) (b : Mat 1 128) : Mat 800000 128 :=
  fun i => msgE ea hs w b (i 0) (i 1)
theorem msgR_ix2 (ea : Mat 800000 16) (hs : Mat 800000 128) (w : Mat 16 128) (b : Mat 1 128) (e : Fin 800000) (j : Fin 128) :
    msgR ea hs w b (ix2 e j) = msgE ea hs w b e j := rfl

def zinE (h agg : Mat 50000 128) (eps : Mat 1 1) (r : Fin 50000) (i : Fin 128) : EReal :=
  (oneW + eps (ix2 0 0)) * h (ix2 r i) + agg (ix2 r i)

def hidE (h agg : Mat 50000 128) (eps : Mat 1 1) (w1 : Mat 128 256) (b1 : Mat 1 256) (r : Fin 50000) (k : Fin 256) : EReal :=
  max ((∑ i : Fin 128, zinE h agg eps r i * w1 (ix2 i k)) + b1 (ix2 0 k)) zeroW

/-- The perceptron: max (((1 + eps) · h + agg) · W1 + b1, 0) · W2 + b2. -/
def mlpE (h agg : Mat 50000 128) (eps : Mat 1 1) (w1 : Mat 128 256) (b1 : Mat 1 256) (w2 : Mat 256 128) (b2 : Mat 1 128)
    (r : Fin 50000) (j : Fin 128) : EReal :=
  (∑ k : Fin 256, hidE h agg eps w1 b1 r k * w2 (ix2 k j)) + b2 (ix2 0 j)
def mlpR (h agg : Mat 50000 128) (eps : Mat 1 1) (w1 : Mat 128 256) (b1 : Mat 1 256) (w2 : Mat 256 128) (b2 : Mat 1 128) :
    Mat 50000 128 := fun i => mlpE h agg eps w1 b1 w2 b2 (i 0) (i 1)
theorem mlpR_ix2 (h agg : Mat 50000 128) (eps : Mat 1 1) (w1 : Mat 128 256) (b1 : Mat 1 256) (w2 : Mat 256 128) (b2 : Mat 1 128)
    (r : Fin 50000) (j : Fin 128) : mlpR h agg eps w1 b1 w2 b2 (ix2 r j) = mlpE h agg eps w1 b1 w2 b2 r j := rfl

/-- The normalisation: max (g · (z − mu) · rsqrt (var + 1e-5) + beta, 0). -/
def bnE (z : Mat 50000 128) (mu var g beta : Mat 1 128) (r : Fin 50000) (j : Fin 128) : EReal :=
  max (g (ix2 0 j) * (z (ix2 r j) - mu (ix2 0 j)) * Ideal.rsqrt (var (ix2 0 j) + bnEpsW) + beta (ix2 0 j)) zeroW
def bnR (z : Mat 50000 128) (mu var g beta : Mat 1 128) : Mat 50000 128 := fun i => bnE z mu var g beta (i 0) (i 1)
theorem bnR_ix2 (z : Mat 50000 128) (mu var g beta : Mat 1 128) (r : Fin 50000) (j : Fin 128) :
    bnR z mu var g beta (ix2 r j) = bnE z mu var g beta r j := rfl

/-- The output projection: p · W + b. -/
def finE (p : Mat 128 128) (w : Mat 128 16) (b : Mat 1 16) (r : Fin 128) (j : Fin 16) : EReal :=
  (∑ k : Fin 128, p (ix2 r k) * w (ix2 k j)) + b (ix2 0 j)
def finR (p : Mat 128 128) (w : Mat 128 16) (b : Mat 1 16) : Mat 128 16 := fun i => finE p w b (i 0) (i 1)
theorem finR_ix2 (p : Mat 128 128) (w : Mat 128 16) (b : Mat 1 16) (r : Fin 128) (j : Fin 16) :
    finR p w b (ix2 r j) = finE p w b r j := rfl

end Cert.Spec

end
-- ==== Proof.Contraction.lean ====
import Idealize.ShloMosaic.PureOps.Ideal.Laws
import Idealize.ShloMosaic.Lib.ValueIdx

noncomputable section

namespace Cert.Spec

open Idealize.ShloMosaic Idealize.ShloMosaic.ValueIdx

variable {M K N : ℕ} {φ₁ φ₂ : FTy}

/-- In a rows-by-columns product the operands are read at (p, k) and (k, q): the contraction runs over the shared coordinate. -/
theorem sum_plain (x : FVec Ideal ⟨2, ![M, K]⟩ φ₁) (w : FVec Ideal ⟨2, ![K, N]⟩ φ₂) (p : Fin M) (q : Fin N) :
    ∑ k : (DotDims.plain M K N).contr.Idx,
        x ((DotDims.plain M K N).lhsIdx (ix2 p q) k) * w ((DotDims.plain M K N).rhsIdx (ix2 p q) k)
      = ∑ k : Fin K, x (ix2 p k) * w (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

variable (d : DotDims ⟨2, ![M, K]⟩ ⟨2, ![K, N]⟩ ⟨2, ![M, N]⟩) (hd : d = DotDims.plain M K N)
include hd

theorem matmul_plain (x : FVec Ideal ⟨2, ![M, K]⟩ φ₁) (w : FVec Ideal ⟨2, ![K, N]⟩ φ₂) (p : Fin M) (q : Fin N) :
    matmul d none x w (constant (F := Ideal) ⟨2, ![M, N]⟩ .f32 0x00000000#32) (ix2 p q) = ∑ k : Fin K, x (ix2 p k) * w (ix2 k q) := by
  subst hd
  exact (Ideal.matmul_constant_zero_apply _ none x w (ix2 p q)).trans (sum_plain x w p q)

theorem dotGeneral_plain (x : FVec Ideal ⟨2, ![M, K]⟩ φ₁) (w : FVec Ideal ⟨2, ![K, N]⟩ φ₂) (p : Fin M) (q : Fin N) :
    Host.dotGeneral (F := Ideal) d none x w (ix2 p q) = ∑ k : Fin K, x (ix2 p k) * w (ix2 k q) := by
  subst hd
  simp only [Host.dotGeneral]
  rw [Ideal.dotGeneral_apply]
  exact sum_plain x w p q

end Cert.Spec

end
-- ==== Proof.KLin.lean ====
import proofs.«407318_j78761110274299_1_alg».proof.Proof.Gen.KernelIdeal.Frame
import proofs.«407318_j78761110274299_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«407318_j78761110274299_1_alg».proof.Proof.Contraction

noncomputable section

namespace Cert.KernelIdeal.KV

open Cert.KernelIdeal Cert.KernelIdeal.Gen Idealize.ShloMosaic Idealize.ShloMosaic.ValueIdx Idealize.ShloMosaic.TcCoe

theorem lin_matmul_apply (x : FVec Ideal S5000x64 .bf16) (w : FVec Ideal S64x128 .bf16) (p : Fin 5000) (q : Fin 128) :
    matmul dot_S5000x64_S64x128_S5000x128_1_0_0_1_n_n none x w (constant (F := Ideal) S5000x128 .f32 0x00000000#32) (ix2 p q)
      = ∑ k : Fin 64, x (ix2 p k) * w (ix2 k q) :=
  Cert.Spec.matmul_plain _ rfl x w p q

theorem lin_pay (x : Vec Ideal S5000x64 .f32) (w : Vec Ideal S64x128 .f32) (b : Vec Ideal S1x128 .f32) (p : Fin 5000) (q : Fin 128) :
    k0_pay1 x w b (ix2 p q) = (∑ k : Fin 64, x (ix2 p k) * w (ix2 k q)) + b (ix2 0 q) := by
  unfold k0_pay1
  show (matmul dot_S5000x64_S64x128_S5000x128_1_0_0_1_n_n none (truncf .bf16 x bitsLt_bf16_f32) (truncf .bf16 w bitsLt_bf16_f32) (constant (F := Ideal) S5000x128 .f32 0x00000000#32)) (ix2 p q)
      + (broadcastTo S5000x128 (shapeCast S1x128 b shapeCasts_S1x128_S1x128) broadcasts_S1x128_S5000x128) (ix2 p q) = _
  rw [lin_matmul_apply, shapeCast_self, broadcastTo_1b_ab_apply]
  rfl

theorem lin_block_eq (X : Vec Ideal S50000x64 .f32) (W : Vec Ideal S64x128 .f32) (B : Vec Ideal S1x128 .f32)
    (x : Vec Ideal S5000x64 .f32) (w : Vec Ideal S64x128 .f32) (b : Vec Ideal S1x128 .f32) (n : ℕ) (hn : n < 10)
    (hx : ∀ (p : Fin 5000) (k : Fin 64), x (ix2 p k) = X (ix2 (⟨n * 5000 + p.val, by have := p.isLt; omega⟩ : Fin 50000) k))
    (hw : w = W) (hb : b = B) (p : Fin 5000) (q : Fin 128) :
    k0_pay1 x w b (ix2 p q) = Spec.linR X W B (ix2 (⟨n * 5000 + p.val, by have := p.isLt; omega⟩ : Fin 50000) q) := by
  subst hw hb
  rw [lin_pay, Spec.linR_ix2]
  unfold Spec.linE
  exact congrArg (· + b (ix2 0 q)) (Finset.sum_congr rfl fun k _ => by rw [hx])

section
variable (V : (c : Dev nD) → (b : Ref sig .tc) → Buf (Elt Ideal) ((c : Thread nD τ).loc b))

abbrev linX (c : Dev nD) : Vec Ideal S50000x64 .f32 := V c (Pipeline.arrRef spec0 0)
abbrev linWt (c : Dev nD) : Vec Ideal S64x128 .f32 := V c (Pipeline.arrRef spec0 1)
abbrev linB (c : Dev nD) : Vec Ideal S1x128 .f32 := V c (Pipeline.arrRef spec0 2)

theorem lin_hz : (![0, 0] : Fin 2 → Nat) = fun _ => 0 := funext fun a => by fin_cases a <;> rfl

theorem lin_idx : ∀ t : Fin cfg0.N, (win0_0.index t (0 : Fin 2) = t.val ∧ win0_0.index t (1 : Fin 2) = 0)
    ∧ (∀ a : Fin 2, win0_1.index t a = 0) ∧ (∀ a : Fin 2, win0_2.index t a = 0)
    ∧ win0_3.index t (0 : Fin 2) = t.val ∧ win0_3.index t (1 : Fin 2) = 0 :=
  (by decide +kernel : ∀ t : Fin grid0.N, _)

-- Row p of block t is row 5000 t + p of the tall array, and each small block is its whole array.
theorem lin_flushed (c : Dev nD) (t : Fin cfg0.N) :
    (dat0 (F := Ideal) V c).flushed 3 t
      = ((cfg0.win 3).blk t).view.read (Elt Ideal) (Spec.linR (linX V c) (linWt V c) (linB V c)) := by
  have ht : t.val < 10 := N_0 ▸ t.isLt
  obtain ⟨⟨x0, x1⟩, zw, zb, o0, o1⟩ := lin_idx t
  show (cfg0.win 3).cut (grid0.coords t) ((dat0 (F := Ideal) V c).after 3 t) = _
  rw [after0_3]
  unfold out0_3
  rw [View.canon_unit_zero lin_hz]
  simp only [View.ld_unit_zero (S := S5000x64) lin_hz, View.ld_unit_zero (S := S64x128) lin_hz, View.ld_unit_zero (S := S1x128) lin_hz]
  funext j
  obtain ⟨p, q, rfl⟩ : ∃ (p : Fin 5000) (q : Fin 128), j = ix2 p q := ⟨j 0, j 1, eq_ix2 j⟩
  have hr : t.val * 5000 + p.val < 50000 := by omega
  have hemb : ((cfg0.win 3).blk t).view.emb (ix2 p q) = ix2 (⟨_, hr⟩ : Fin 50000) q :=
    Shape.idx_ext₂ ((win0_3.rect_emb_val t _ 0).trans (by show _ * 5000 + p.val = t.val * 5000 + p.val; rw [o0]))
      (win0_3.rect_emb_val_of_index_zero t 1 o1 _)
  show k0_pay1 (F := Ideal) (iblk0 V c 0 t) (iblk0 V c 1 t) (iblk0 V c 2 t) (ix2 p q)
    = Spec.linR (linX V c) (linWt V c) (linB V c) (((cfg0.win 3).blk t).view.emb (ix2 p q))
  rw [hemb]
  exact lin_block_eq (linX V c) (linWt V c) (linB V c) (iblk0 V c 0 t) (iblk0 V c 1 t) (iblk0 V c 2 t) t.val ht
    (fun p k => congrArg (linX V c) (Shape.idx_ext₂ ((win0_0.rect_emb_val t (ix2 p k) 0).trans (by show _ * 5000 + p.val = t.val * 5000 + p.val; rw [x0]))
      (win0_0.rect_emb_val_of_index_zero t 1 x1 _)))
    (funext fun y => congrArg (linWt V c) (funext fun a => Fin.ext (win0_1.rect_emb_val_of_index_zero t a (zw a) y)))
    (funext fun y => congrArg (linB V c) (funext fun a => Fin.ext (win0_2.rect_emb_val_of_index_zero t a (zb a) y))) p q

-- Row r lies in the block of grid point r / 5000, at row r % 5000 of it.
theorem lin_cover (i : S50000x128.Idx) :
    ∃ t : Fin cfg0.N, (cfg0.win 3).flush t = true ∧ i ∈ ((cfg0.win 3).blk t).view.set := by
  have hN : grid0.N = 10 := N_0
  have hi0 : (i 0).val < 50000 := (i 0).isLt
  have ht : (i 0).val / 5000 < grid0.N := by omega
  obtain ⟨-, -, -, o0, o1⟩ := lin_idx ⟨_, ht⟩
  refine ⟨⟨_, ht⟩, flush0_3 _, ?_⟩
  have h := ((cfg0.win 3).blk ⟨_, ht⟩).view.emb_mem_set (ix2 (⟨(i 0).val % 5000, Nat.mod_lt _ (by omega)⟩ : Fin 5000) (i 1))
  rwa [show ((cfg0.win 3).blk ⟨_, ht⟩).view.emb (ix2 (⟨(i 0).val % 5000, Nat.mod_lt _ (by omega)⟩ : Fin 5000) (i 1)) = i from
    Shape.idx_ext₂ ((win0_3.rect_emb_val _ _ 0).trans (by
        show _ * 5000 + (i 0).val % 5000 = (i 0).val
        rw [o0]; show (i 0).val / 5000 * 5000 + (i 0).val % 5000 = (i 0).val; omega))
      (win0_3.rect_emb_val_of_index_zero _ 1 o1 _)] at h

theorem lin_value (c : Dev nD) :
    (dat0 (F := Ideal) V c).arrAt 3 cfg0.N = Spec.linR (V c (Pipeline.arrRef spec0 0)) (V c (Pipeline.arrRef spec0 1)) (V c (Pipeline.arrRef spec0 2)) :=
  (dat0 (F := Ideal) V c).arrAt_eq_of_cover 3 (Spec.linR (linX V c) (linWt V c) (linB V c)) (fun t _ => lin_flushed V c t) lin_cover

end

theorem lin_W2 (m : (ℓ : Loc nD τ sig) → Buf (Elt Ideal) ℓ) (ρ : Dev nD → PrngReg) (c : Dev nD) :
    W2 (F := Ideal) m ρ c (Proc.devRef .tc main_v5) = Spec.linR (W1 m ρ c (Proc.devRef .tc main_arg0)) (W1 m ρ c (Proc.devRef .tc main_arg4)) (W1 m ρ c (Proc.devRef .tc main_v4)) :=
  (W2_arr m ρ c 3).trans (lin_value (V1 m ρ) c)

end Cert.KernelIdeal.KV

end
-- ==== Proof.KFin.lean ====
import proofs.«407318_j78761110274299_1_alg».proof.Proof.Gen.KernelIdeal.Frame
import proofs.«407318_j78761110274299_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«407318_j78761110274299_1_alg».proof.Proof.Contraction

noncomputable section

namespace Cert.KernelIdeal.KV

open Cert.KernelIdeal Cert.KernelIdeal.Gen Idealize.ShloMosaic Idealize.ShloMosaic.ValueIdx Idealize.ShloMosaic.TcCoe

theorem fin_matmul_apply (x : FVec Ideal S128x128 .bf16) (w : FVec Ideal S128x16 .bf16) (p : Fin 128) (q : Fin 16) :
    matmul dot_S128x128_S128x16_S128x16_1_0_0_1_n_n none x w (constant (F := Ideal) S128x16 .f32 0x00000000#32) (ix2 p q)
      = ∑ k : Fin 128, x (ix2 p k) * w (ix2 k q) :=
  Cert.Spec.matmul_plain _ rfl x w p q

theorem fin_pay (x : Vec Ideal S128x128 .f32) (w : Vec Ideal S128x16 .f32) (b : Vec Ideal S1x16 .f32) (p : Fin 128) (q : Fin 16) :
    k10_pay1 x w b (ix2 p q) = (∑ k : Fin 128, x (ix2 p k) * w (ix2 k q)) + b (ix2 0 q) := by
  unfold k10_pay1
  show (matmul dot_S128x128_S128x16_S128x16_1_0_0_1_n_n none (truncf .bf16 (shapeCast S128x128 x shapeCasts_S128x128_S128x128) bitsLt_bf16_f32) (truncf .bf16 w bitsLt_bf16_f32) (constant (F := Ideal) S128x16 .f32 0x00000000#32)) (ix2 p q)
      + (broadcastTo S128x16 (shapeCast S1x16 b shapeCasts_S1x16_S1x16) broadcasts_S1x16_S128x16) (ix2 p q) = _
  rw [fin_matmul_apply, shapeCast_self, shapeCast_self, broadcastTo_1b_ab_apply]
  rfl

theorem fin_block_eq (X : Vec Ideal S128x128 .f32) (W : Vec Ideal S128x16 .f32) (B : Vec Ideal S1x16 .f32)
    (x : Vec Ideal S128x128 .f32) (w : Vec Ideal S128x16 .f32) (b : Vec Ideal S1x16 .f32)
    (hx : x = X) (hw : w = W) (hb : b = B) (p : Fin 128) (q : Fin 16) :
    k10_pay1 x w b (ix2 p q) = Spec.finR X W B (ix2 p q) := by
  subst hx hw hb
  rw [fin_pay, Spec.finR_ix2]
  rfl

section
variable (V : (c : Dev nD) → (b : Ref sig .tc) → Buf (Elt Ideal) ((c : Thread nD τ).loc b))

abbrev finX (c : Dev nD) : Vec Ideal S128x128 .f32 := V c (Pipeline.arrRef spec10 0)
abbrev finWt (c : Dev nD) : Vec Ideal S128x16 .f32 := V c (Pipeline.arrRef spec10 1)
abbrev finB (c : Dev nD) : Vec Ideal S1x16 .f32 := V c (Pipeline.arrRef spec10 2)

theorem fin_hz : (![0, 0] : Fin 2 → Nat) = fun _ => 0 := funext fun a => by fin_cases a <;> rfl

theorem fin_idx : ∀ t : Fin cfg10.N, (∀ a : Fin 2, win10_0.index t a = 0) ∧ (∀ a : Fin 2, win10_1.index t a = 0)
    ∧ (∀ a : Fin 2, win10_2.index t a = 0) ∧ (∀ a : Fin 2, win10_3.index t a = 0) :=
  (by decide +kernel : ∀ t : Fin grid10.N, _)

-- Every block is its whole array, so the one grid point writes back the layer of the whole arrays.
theorem fin_flushed (c : Dev nD) (t : Fin cfg10.N) :
    (dat10 (F := Ideal) V c).flushed 3 t
      = ((cfg10.win 3).blk t).view.read (Elt Ideal) (Spec.finR (finX V c) (finWt V c) (finB V c)) := by
  obtain ⟨zx, zw, zb, zo⟩ := fin_idx t
  show (cfg10.win 3).cut (grid10.coords t) ((dat10 (F := Ideal) V c).after 3 t) = _
  rw [after10_3]
  unfold out10_3
  rw [View.canon_unit_zero fin_hz]
  simp only [View.ld_unit_zero (S := S128x128) fin_hz, View.ld_unit_zero (S := S128x16) fin_hz, View.ld_unit_zero (S := S1x16) fin_hz]
  funext j
  obtain ⟨p, q, rfl⟩ : ∃ (p : Fin 128) (q : Fin 16), j = ix2 p q := ⟨j 0, j 1, eq_ix2 j⟩
  have hemb : ((cfg10.win 3).blk t).view.emb (ix2 p q) = ix2 p q :=
    funext fun a => Fin.ext (win10_3.rect_emb_val_of_index_zero t a (zo a) _)
  show k10_pay1 (F := Ideal) (iblk10 V c 0 t) (iblk10 V c 1 t) (iblk10 V c 2 t) (ix2 p q)
    = Spec.finR (finX V c) (finWt V c) (finB V c) (((cfg10.win 3).blk t).view.emb (ix2 p q))
  rw [hemb]
  exact fin_block_eq (finX V c) (finWt V c) (finB V c) (iblk10 V c 0 t) (iblk10 V c 1 t) (iblk10 V c 2 t)
    (funext fun y => congrArg (finX V c) (funext fun a => Fin.ext (win10_0.rect_emb_val_of_index_zero t a (zx a) y)))
    (funext fun y => congrArg (finWt V c) (funext fun a => Fin.ext (win10_1.rect_emb_val_of_index_zero t a (zw a) y)))
    (funext fun y => congrArg (finB V c) (funext fun a => Fin.ext (win10_2.rect_emb_val_of_index_zero t a (zb a) y))) p q

theorem fin_cover (i : S128x16.Idx) :
    ∃ t : Fin cfg10.N, (cfg10.win 3).flush t = true ∧ i ∈ ((cfg10.win 3).blk t).view.set := by
  have ht : 0 < cfg10.N := by rw [show cfg10.N = 1 from N_10]; omega
  obtain ⟨-, -, -, zo⟩ := fin_idx ⟨0, ht⟩
  refine ⟨⟨0, ht⟩, flush10_3 _, ?_⟩
  have h := ((cfg10.win 3).blk ⟨0, ht⟩).view.emb_mem_set i
  rwa [show ((cfg10.win 3).blk ⟨0, ht⟩).view.emb i = i from
    funext fun a => Fin.ext (win10_3.rect_emb_val_of_index_zero _ a (zo a) _)] at h

theorem fin_value (c : Dev nD) :
    (dat10 (F := Ideal) V c).arrAt 3 cfg10.N = Spec.finR (V c (Pipeline.arrRef spec10 0)) (V c (Pipeline.arrRef spec10 1)) (V c (Pipeline.arrRef spec10 2)) :=
  (dat10 (F := Ideal) V c).arrAt_eq_of_cover 3 (Spec.finR (finX V c) (finWt V c) (finB V c)) (fun t _ => fin_flushed V c t) fin_cover

end

theorem fin_W25 (m : (ℓ : Loc nD τ sig) → Buf (Elt Ideal) ℓ) (ρ : Dev nD → PrngReg) (c : Dev nD) :
    W25 (F := Ideal) m ρ c (Proc.devRef .tc main_v148) = Spec.finR (W24 m ρ c (Proc.devRef .tc main_v146)) (W24 m ρ c (Proc.devRef .tc main_arg15)) (W24 m ρ c (Proc.devRef .tc main_v147)) :=
  (W25_arr m ρ c 3).trans (fin_value (V24 m ρ) c)

end Cert.KernelIdeal.KV

end
-- ==== Proof.KMsg1.lean ====
import proofs.«407318_j78761110274299_1_alg».proof.Proof.Gen.KernelIdeal.Frame
import proofs.«407318_j78761110274299_1_alg».proof.Proof.Spec
import proofs.«407318_j78761110274299_1_alg».proof.Proof.Contraction
import Idealize.ShloMosaic.Lib.ValueLayout
import Idealize.ShloMosaic.Lib.Pipeline.Value

noncomputable section

namespace Cert.KernelIdeal.KV

open Cert.KernelIdeal Cert.KernelIdeal.Gen Idealize.ShloMosaic Idealize.ShloMosaic.ValueIdx Idealize.ShloMosaic.TcCoe
open Idealize.ShloMosaic.Pipeline (Dat)

namespace Msg1

/-- Narrowing is the identity on the extended reals, so the stored entry is the projected row plus the bias plus the gathered row, clipped at zero. -/
theorem pay_ix2 (v0 : Vec Ideal S10000x16 .f32) (v2 : Vec Ideal S16x128 .f32) (v6 : Vec Ideal S1x128 .f32) (v10 : Vec Ideal S10000x128 .f32)
    (p : Fin 10000) (q : Fin 128) :
    k1_pay1 v0 v2 v6 v10 (ix2 p q)
      = max (((∑ k : Fin 16, v0 (ix2 p k) * v2 (ix2 k q)) + v6 (ix2 0 q)) + v10 (ix2 p q)) Spec.zeroW := by
  unfold k1_pay1
  rw [maximumf_apply, addf_apply, addf_apply, Spec.matmul_plain dot_S10000x16_S16x128_S10000x128_1_0_0_1_n_n rfl, shapeCast_self, shapeCast_self, shapeCast_self, broadcastTo_1b_ab_apply]
  rfl

theorem pay_msg (x0 : Vec Ideal S10000x16 .f32) (x1 : Vec Ideal S10000x128 .f32) (x2 : Vec Ideal S16x128 .f32) (x3 : Vec Ideal S1x128 .f32)
    (ea : Vec Ideal S800000x16 .f32) (hs : Vec Ideal S800000x128 .f32) (w : Vec Ideal S16x128 .f32) (b : Vec Ideal S1x128 .f32)
    (r : Fin 800000) (p : Fin 10000) (q : Fin 128)
    (h0 : ∀ k : Fin 16, x0 (ix2 p k) = ea (ix2 r k)) (h1 : x1 (ix2 p q) = hs (ix2 r q)) (h2 : x2 = w) (h3 : x3 = b) :
    k1_pay1 x0 x2 x3 x1 (ix2 p q) = Spec.msgR ea hs w b (ix2 r q) := by
  rw [pay_ix2, Spec.msgR_ix2, h1, h2, h3]
  unfold Spec.msgE
  rw [Finset.sum_congr rfl fun k _ => by rw [h0 k]]

theorem zero2 : (![0, 0] : Fin 2 → Nat) = fun _ => 0 := funext (Fin.forall_fin_two.2 ⟨rfl, rfl⟩)

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

def rowOf (t : Fin cfg1.N) (p : Fin 10000) : Fin 800000 :=
  ⟨t.val * 10000 + p.val, by have h := t.isLt; have hN : cfg1.N = 80 := N_1; have hp := p.isLt; omega⟩

/-- The block stored at grid point t is rows 10000·t … 10000·t + 9999 of the message table of the operands the input blocks are rows of. -/
theorem flushed {x0 : Vec Ideal S10000x16 .f32} {x1 : Vec Ideal S10000x128 .f32} {x2 : Vec Ideal S16x128 .f32} {x3 : Vec Ideal S1x128 .f32}
    (ea : Vec Ideal S800000x16 .f32) (hs : Vec Ideal S800000x128 .f32) (w : Vec Ideal S16x128 .f32) (b : Vec Ideal S1x128 .f32) (t : Fin cfg1.N)
    (h0 : x0 = ((cfg1.win 0).blk t).view.read (Elt Ideal) ea) (h1 : x1 = ((cfg1.win 1).blk t).view.read (Elt Ideal) hs) (h2 : x2 = ((cfg1.win 2).blk t).view.read (Elt Ideal) w) (h3 : x3 = ((cfg1.win 3).blk t).view.read (Elt Ideal) b) :
    (cfg1.win 4).cut (grid1.coords t) (out1_4 x0 x1 x2 x3) = ((cfg1.win 4).blk t).view.read (Elt Ideal) (Spec.msgR ea hs w b) := by
  obtain ⟨e0, e1, e2, e3, e4, e5, e6, e7, e8, e9⟩ := idx_facts t
  unfold out1_4
  rw [View.canon_unit_zero zero2]
  simp only [View.ld_unit_zero (S := S10000x16) zero2, View.ld_unit_zero (S := S10000x128) zero2,
    View.ld_unit_zero (S := S16x128) zero2, View.ld_unit_zero (S := S1x128) zero2]
  funext j
  obtain ⟨p, q, rfl⟩ : ∃ (p : Fin 10000) (q : Fin 128), j = ix2 p q := ⟨j 0, j 1, eq_ix2 j⟩
  show k1_pay1 x0 x2 x3 x1 (ix2 p q) = Spec.msgR ea hs w b (((cfg1.win 4).blk t).view.emb (ix2 p q))
  rw [show ((cfg1.win 4).blk t).view.emb (ix2 p q) = ix2 (rowOf t p) q from
    Shape.idx_ext₂ ((win1_4.rect_emb_val t _ (0 : Fin 2)).trans (congrArg (· * 10000 + p.val) e8)) (win1_4.rect_emb_val_of_index_zero t (1 : Fin 2) e9 _)]
  refine pay_msg x0 x1 x2 x3 ea hs w b (rowOf t p) p q (fun k => ?_) ?_ ?_ ?_
  · rw [h0]
    exact congrArg ea (Shape.idx_ext₂ ((win1_0.rect_emb_val t _ (0 : Fin 2)).trans (congrArg (· * 10000 + p.val) e0)) (win1_0.rect_emb_val_of_index_zero t (1 : Fin 2) e1 _))
  · rw [h1]
    exact congrArg hs (Shape.idx_ext₂ ((win1_1.rect_emb_val t _ (0 : Fin 2)).trans (congrArg (· * 10000 + p.val) e2)) (win1_1.rect_emb_val_of_index_zero t (1 : Fin 2) e3 _))
  · rw [h2]
    exact funext fun y => congrArg w (Shape.idx_ext₂ (win1_2.rect_emb_val_of_index_zero t (0 : Fin 2) e4 y) (win1_2.rect_emb_val_of_index_zero t (1 : Fin 2) e5 y))
  · rw [h3]
    exact funext fun y => congrArg b (Shape.idx_ext₂ (win1_3.rect_emb_val_of_index_zero t (0 : Fin 2) e6 y) (win1_3.rect_emb_val_of_index_zero t (1 : Fin 2) e7 y))

/-- Row r lies in the block of grid point r / 10000. -/
theorem cover (i : S800000x128.Idx) : ∃ t : Fin cfg1.N, (cfg1.win 4).flush t = true ∧ i ∈ ((cfg1.win 4).blk t).view.set := by
  have hi0 : (i 0).val < 800000 := (i 0).isLt
  have hN : cfg1.N = 80 := N_1
  let t : Fin cfg1.N := ⟨(i 0).val / 10000, by omega⟩
  obtain ⟨-, -, -, -, -, -, -, -, e8, e9⟩ := idx_facts t
  refine ⟨t, flush1_4 t, ?_⟩
  let p : Fin 10000 := ⟨(i 0).val % 10000, Nat.mod_lt _ (by decide)⟩
  have h := ((cfg1.win 4).blk t).view.emb_mem_set (ix2 p (i 1))
  rwa [show ((cfg1.win 4).blk t).view.emb (ix2 p (i 1)) = i from
    Shape.idx_ext₂ ((win1_4.rect_emb_val t _ (0 : Fin 2)).trans ((congrArg (· * 10000 + p.val) e8).trans (Nat.div_add_mod' _ _)))
      (win1_4.rect_emb_val_of_index_zero t (1 : Fin 2) e9 _)] at h

end Msg1

/-- The first layer's message table: the stored blocks are its rows and they cover it. -/
theorem msg1_W5 (m : (ℓ : Loc nD τ sig) → Buf (Elt Ideal) ℓ) (ρ : Dev nD → PrngReg) (c : Dev nD) :
    W5 (F := Ideal) m ρ c (Proc.devRef .tc main_v12) = Spec.msgR (W4 m ρ c (Proc.devRef .tc main_arg3)) (W4 m ρ c (Proc.devRef .tc main_v6)) (W4 m ρ c (Proc.devRef .tc main_v8)) (W4 m ρ c (Proc.devRef .tc main_v11)) := by
  show W5 (F := Ideal) m ρ c (Proc.devRef .tc (Pipeline.arrRef spec1 4)) = _
  rw [W5_arr m ρ c 4]
  exact (dat1 (F := Ideal) (V4 m ρ) c).arrAt_eq_of_cover 4 _
    (fun t _ => (congrArg _ (after1_4 _ c t)).trans (Msg1.flushed _ _ _ _ t rfl rfl rfl rfl)) Msg1.cover

end Cert.KernelIdeal.KV

end
-- ==== Proof.KMsg4.lean ====
import proofs.«407318_j78761110274299_1_alg».proof.Proof.KMsg1

noncomputable section

namespace Cert.KernelIdeal.KV

open Cert.KernelIdeal Cert.KernelIdeal.Gen Idealize.ShloMosaic Idealize.ShloMosaic.TcCoe
open Idealize.ShloMosaic.Pipeline (Dat)

/-- The second layer's message table: its blocks and their arithmetic are the first layer's, term for term. -/
theorem msg4_W12 (m : (ℓ : Loc nD τ sig) → Buf (Elt Ideal) ℓ) (ρ : Dev nD → PrngReg) (c : Dev nD) :
    W12 (F := Ideal) m ρ c (Proc.devRef .tc main_v55) = Spec.msgR (W11 m ρ c (Proc.devRef .tc main_arg3)) (W11 m ρ c (Proc.devRef .tc main_v49)) (W11 m ρ c (Proc.devRef .tc main_v51)) (W11 m ρ c (Proc.devRef .tc main_v54)) := by
  show W12 (F := Ideal) m ρ c (Proc.devRef .tc (Pipeline.arrRef spec4 4)) = _
  rw [W12_arr m ρ c 4]
  exact (dat4 (F := Ideal) (V11 m ρ) c).arrAt_eq_of_cover 4 _
    (fun t _ => (congrArg _ (after4_4 _ c t)).trans (Msg1.flushed _ _ _ _ t rfl rfl rfl rfl)) Msg1.cover

end Cert.KernelIdeal.KV

end
-- ==== Proof.KMsg7.lean ====
import proofs.«407318_j78761110274299_1_alg».proof.Proof.KMsg1

noncomputable section

namespace Cert.KernelIdeal.KV

open Cert.KernelIdeal Cert.KernelIdeal.Gen Idealize.ShloMosaic Idealize.ShloMosaic.TcCoe
open Idealize.ShloMosaic.Pipeline (Dat)

/-- The third layer's message table: its blocks and their arithmetic are the first layer's, term for term. -/
theorem msg7_W19 (m : (ℓ : Loc nD τ sig) → Buf (Elt Ideal) ℓ) (ρ : Dev nD → PrngReg) (c : Dev nD) :
    W19 (F := Ideal) m ρ c (Proc.devRef .tc main_v98) = Spec.msgR (W18 m ρ c (Proc.devRef .tc main_arg3)) (W18 m ρ c (Proc.devRef .tc main_v92)) (W18 m ρ c (Proc.devRef .tc main_v94)) (W18 m ρ c (Proc.devRef .tc main_v97)) := by
  show W19 (F := Ideal) m ρ c (Proc.devRef .tc (Pipeline.arrRef spec7 4)) = _
  rw [W19_arr m ρ c 4]
  exact (dat7 (F := Ideal) (V18 m ρ) c).arrAt_eq_of_cover 4 _
    (fun t _ => (congrArg _ (after7_4 _ c t)).trans (Msg1.flushed _ _ _ _ t rfl rfl rfl rfl)) Msg1.cover

end Cert.KernelIdeal.KV

end
-- ==== Proof.KMlp2.lean ====
import proofs.«407318_j78761110274299_1_alg».proof.Proof.Gen.KernelIdeal.Frame
import proofs.«407318_j78761110274299_1_alg».proof.Proof.Spec
import proofs.«407318_j78761110274299_1_alg».proof.Proof.Contraction
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx Idealize.ShloMosaic.TcCoe

theorem mlp2_mm1_apply (a : FVec Ideal S5000x128 .bf16) (b : FVec Ideal S128x256 .bf16) (p : Fin 5000) (k : Fin 256) :
    matmul dot_S5000x128_S128x256_S5000x256_1_0_0_1_n_n none a b (constant (F := Ideal) S5000x256 .f32 0x00000000#32) (ix2 p k)
      = ∑ i : Fin 128, a (ix2 p i) * b (ix2 i k) :=
  Cert.Spec.matmul_plain _ rfl a b p k

theorem mlp2_mm2_apply (a : FVec Ideal S5000x256 .bf16) (b : FVec Ideal S256x128 .bf16) (p : Fin 5000) (k : Fin 128) :
    matmul dot_S5000x256_S256x128_S5000x128_1_0_0_1_n_n none a b (constant (F := Ideal) S5000x128 .f32 0x00000000#32) (ix2 p k)
      = ∑ i : Fin 256, a (ix2 p i) * b (ix2 i k) :=
  Cert.Spec.matmul_plain _ rfl a b p k

theorem mlp2_bc11 (x : FVec Ideal S1x1 .f32) (p : Fin 5000) (q : Fin 128) :
    broadcastTo S5000x128 x broadcasts_S1x1_S5000x128 (ix2 p q) = x (ix2 0 0) := by
  refine broadcastTo_apply x broadcasts_S1x1_S5000x128 (ix2 p q) (ix2 0 0) fun ax => ?_
  match ax with
  | ⟨0, _⟩ => rfl
  | ⟨1, _⟩ => rfl

def mlp2_zinB (v0 : Vec Ideal S1x1 .f32) (v4 v8 : Vec Ideal S5000x128 .f32) (p : Fin 5000) (i : Fin 128) : EReal :=
  (Spec.oneW + v0 (ix2 0 0)) * v4 (ix2 p i) + v8 (ix2 p i)

def mlp2_hidB (v0 : Vec Ideal S1x1 .f32) (v4 v8 : Vec Ideal S5000x128 .f32) (v12 : Vec Ideal S128x256 .f32) (v16 : Vec Ideal S1x256 .f32)
    (p : Fin 5000) (k : Fin 256) : EReal :=
  max ((∑ i : Fin 128, mlp2_zinB v0 v4 v8 p i * v12 (ix2 i k)) + v16 (ix2 0 k)) Spec.zeroW

theorem mlp2_zin_apply (v0 : Vec Ideal S1x1 .f32) (v4 v8 : Vec Ideal S5000x128 .f32) (p : Fin 5000) (i : Fin 128) :
    addf (mulf (broadcastTo S5000x128 (addf (broadcast S1x1 (Scalar.ofBits (F := Ideal) .f32 0x3F800000#32)) v0) broadcasts_S1x1_S5000x128) v4) v8 (ix2 p i)
      = mlp2_zinB v0 v4 v8 p i := by
  rw [addf_apply, mulf_apply, mlp2_bc11]
  rfl

-- Row p of the stored block: both contractions, the clip at zero and the two biases, read index by index.
theorem mlp2_pay_apply (v0 : Vec Ideal S1x1 .f32) (v4 v8 : Vec Ideal S5000x128 .f32) (v12 : Vec Ideal S128x256 .f32) (v16 : Vec Ideal S1x256 .f32)
    (v23 : Vec Ideal S256x128 .f32) (v27 : Vec Ideal S1x128 .f32) (p : Fin 5000) (q : Fin 128) :
    k2_pay1 (F := Ideal) v0 v4 v8 v12 v16 v23 v27 (ix2 p q)
      = (∑ k : Fin 256, mlp2_hidB v0 v4 v8 v12 v16 p k * v23 (ix2 k q)) + v27 (ix2 0 q) := by
  unfold k2_pay1
  simp only [shapeCast_self]
  rw [addf_apply, mlp2_mm2_apply, broadcastTo_1b_ab_apply]
  refine congrArg (· + v27 (ix2 0 q)) (Finset.sum_congr rfl fun k _ => ?_)
  rw [truncf_apply, truncf_apply]
  refine congrArg (· * v23 (ix2 k q)) ?_
  rw [maximumf_apply, addf_apply, broadcast_apply, mlp2_mm1_apply, broadcastTo_1b_ab_apply]
  unfold mlp2_hidB
  refine congrArg (fun s => max (s + v16 (ix2 0 k)) Spec.zeroW) (Finset.sum_congr rfl fun i _ => ?_)
  rw [truncf_apply, truncf_apply, mlp2_zin_apply]

theorem mlp2_hz : (![0, 0] : Fin 2 → Nat) = fun _ => 0 := funext fun a => by fin_cases a <;> rfl

-- Reading and writing through the full rectangle at offset zero is the identity, so the stored block is the payload of the input blocks.
theorem mlp2_out_apply (x0 x1 : Vec Ideal S5000x128 .f32) (x2 : Vec Ideal S1x1 .f32) (x3 : Vec Ideal S128x256 .f32) (x4 : Vec Ideal S1x256 .f32)
    (x5 : Vec Ideal S256x128 .f32) (x6 : Vec Ideal S1x128 .f32) (p : Fin 5000) (q : Fin 128) :
    out2_7 (F := Ideal) x0 x1 x2 x3 x4 x5 x6 (ix2 p q)
      = (∑ k : Fin 256, mlp2_hidB x2 x0 x1 x3 x4 p k * x5 (ix2 k q)) + x6 (ix2 0 q) := by
  unfold out2_7
  rw [View.canon_unit_zero mlp2_hz]
  simp only [View.ld_unit_zero (S := S5000x128) mlp2_hz, View.ld_unit_zero (S := S1x1) mlp2_hz, View.ld_unit_zero (S := S128x256) mlp2_hz,
    View.ld_unit_zero (S := S1x256) mlp2_hz, View.ld_unit_zero (S := S256x128) mlp2_hz, View.ld_unit_zero (S := S1x128) mlp2_hz]
  exact mlp2_pay_apply x2 x0 x1 x3 x4 x5 x6 p q

-- The perceptron of a row reads only that row of the two tall operands.
theorem mlp2_rows (e : Vec Ideal S1x1 .f32) (hb ab : Vec Ideal S5000x128 .f32) (H A : Vec Ideal S50000x128 .f32)
    (w1 : Vec Ideal S128x256 .f32) (b1 : Vec Ideal S1x256 .f32) (w2 : Vec Ideal S256x128 .f32) (b2 : Vec Ideal S1x128 .f32)
    (p : Fin 5000) (r : Fin 50000) (q : Fin 128)
    (hh : ∀ i : Fin 128, hb (ix2 p i) = H (ix2 r i)) (ha : ∀ i : Fin 128, ab (ix2 p i) = A (ix2 r i)) :
    (∑ k : Fin 256, mlp2_hidB e hb ab w1 b1 p k * w2 (ix2 k q)) + b2 (ix2 0 q) = Spec.mlpE H A e w1 b1 w2 b2 r q := by
  unfold Spec.mlpE Spec.hidE Spec.zinE mlp2_hidB mlp2_zinB
  simp only [hh, ha]

section Region
variable (V : (c : Dev nD) → (b : Ref sig .tc) → Buf (Elt Ideal) ((c : Thread nD τ).loc b))

abbrev mlp2_harr (c : Dev nD) : Vec Ideal S50000x128 .f32 := V c (Pipeline.arrRef spec2 0)
abbrev mlp2_aarr (c : Dev nD) : Vec Ideal S50000x128 .f32 := V c (Pipeline.arrRef spec2 1)
abbrev mlp2_earr (c : Dev nD) : Vec Ideal S1x1 .f32 := V c (Pipeline.arrRef spec2 2)
abbrev mlp2_w1arr (c : Dev nD) : Vec Ideal S128x256 .f32 := V c (Pipeline.arrRef spec2 3)
abbrev mlp2_b1arr (c : Dev nD) : Vec Ideal S1x256 .f32 := V c (Pipeline.arrRef spec2 4)
abbrev mlp2_w2arr (c : Dev nD) : Vec Ideal S256x128 .f32 := V c (Pipeline.arrRef spec2 5)
abbrev mlp2_b2arr (c : Dev nD) : Vec Ideal S1x128 .f32 := V c (Pipeline.arrRef spec2 6)

abbrev mlp2_G (c : Dev nD) : Vec Ideal S50000x128 .f32 :=
  Spec.mlpR (mlp2_harr V c) (mlp2_aarr V c) (mlp2_earr V c) (mlp2_w1arr V c) (mlp2_b1arr V c) (mlp2_w2arr V c) (mlp2_b2arr V c)

theorem mlp2_idx : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (∀ a : Fin 2, win2_2.index t a = 0) ∧ (∀ a : Fin 2, win2_3.index t a = 0) ∧ (∀ a : Fin 2, win2_4.index t a = 0)
    ∧ (∀ a : Fin 2, win2_5.index t a = 0) ∧ (∀ a : Fin 2, win2_6.index t a = 0)
    ∧ (win2_7.index t (0 : Fin 2) = t.val ∧ win2_7.index t (1 : Fin 2) = 0) :=
  (by decide +kernel : ∀ t : Fin grid2.N, _)

-- Row p of block t is row 5000 t + p of each tall array, and each small block is its whole array, so the rows agree.
theorem mlp2_flushed_eq (c : Dev nD) (t : Fin cfg2.N) :
    (dat2 (F := Ideal) V c).flushed 7 t = ((cfg2.win 7).blk t).view.read (Elt Ideal) (mlp2_G V c) := by
  have ht : t.val < 10 := N_2 ▸ t.isLt
  obtain ⟨⟨h0, h1⟩, ⟨a0, a1⟩, ze, zw1, zb1, zw2, zb2, o0, o1⟩ := mlp2_idx t
  show (cfg2.win 7).cut (grid2.coords t) ((dat2 V c).after 7 t) = _
  rw [after2_7]
  funext j
  obtain ⟨p, q, rfl⟩ : ∃ (p : Fin 5000) (q : Fin 128), j = ix2 p q := ⟨j 0, j 1, eq_ix2 j⟩
  have hr : t.val * 5000 + p.val < 50000 := by omega
  have hemb : ((cfg2.win 7).blk t).view.emb (ix2 p q) = ix2 (⟨_, hr⟩ : Fin 50000) q :=
    Shape.idx_ext₂ ((win2_7.rect_emb_val t _ 0).trans (by show _ * 5000 + p.val = t.val * 5000 + p.val; rw [o0]))
      (win2_7.rect_emb_val_of_index_zero t 1 o1 _)
  have hh : ∀ i : Fin 128, iblk2 V c 0 t (ix2 p i) = mlp2_harr V c (ix2 ⟨_, hr⟩ i) := fun i =>
    congrArg (mlp2_harr V c) (Shape.idx_ext₂ ((win2_0.rect_emb_val t (ix2 p i) 0).trans (by show _ * 5000 + p.val = t.val * 5000 + p.val; rw [h0]))
      (win2_0.rect_emb_val_of_index_zero t 1 h1 _))
  have ha : ∀ i : Fin 128, iblk2 V c 1 t (ix2 p i) = mlp2_aarr V c (ix2 ⟨_, hr⟩ i) := fun i =>
    congrArg (mlp2_aarr V c) (Shape.idx_ext₂ ((win2_1.rect_emb_val t (ix2 p i) 0).trans (by show _ * 5000 + p.val = t.val * 5000 + p.val; rw [a0]))
      (win2_1.rect_emb_val_of_index_zero t 1 a1 _))
  have he : iblk2 V c 2 t = mlp2_earr V c :=
    funext fun y => congrArg (mlp2_earr V c) (funext fun a => Fin.ext (win2_2.rect_emb_val_of_index_zero t a (ze a) y))
  have hw1 : iblk2 V c 3 t = mlp2_w1arr V c :=
    funext fun y => congrArg (mlp2_w1arr V c) (funext fun a => Fin.ext (win2_3.rect_emb_val_of_index_zero t a (zw1 a) y))
  have hb1 : iblk2 V c 4 t = mlp2_b1arr V c :=
    funext fun y => congrArg (mlp2_b1arr V c) (funext fun a => Fin.ext (win2_4.rect_emb_val_of_index_zero t a (zb1 a) y))
  have hw2 : iblk2 V c 5 t = mlp2_w2arr V c :=
    funext fun y => congrArg (mlp2_w2arr V c) (funext fun a => Fin.ext (win2_5.rect_emb_val_of_index_zero t a (zw2 a) y))
  have hb2 : iblk2 V c 6 t = mlp2_b2arr V c :=
    funext fun y => congrArg (mlp2_b2arr V c) (funext fun a => Fin.ext (win2_6.rect_emb_val_of_index_zero t a (zb2 a) y))
  show out2_7 (F := Ideal) (iblk2 V c 0 t) (iblk2 V c 1 t) (iblk2 V c 2 t) (iblk2 V c 3 t) (iblk2 V c 4 t) (iblk2 V c 5 t) (iblk2 V c 6 t) (ix2 p q)
    = mlp2_G V c (((cfg2.win 7).blk t).view.emb (ix2 p q))
  rw [hemb, he, hw1, hb1, hw2, hb2]
  exact (mlp2_out_apply _ _ _ _ _ _ _ p q).trans (mlp2_rows _ _ _ _ _ _ _ _ _ p ⟨_, hr⟩ q hh ha)

-- Row r lies in the block of grid point r / 5000, at row r % 5000 of it.
theorem mlp2_cover (i : S50000x128.Idx) : ∃ t : Fin cfg2.N, (cfg2.win 7).flush t = true ∧ i ∈ ((cfg2.win 7).blk t).view.set := by
  have hN : grid2.N = 10 := N_2
  have hi0 : (i 0).val < 50000 := (i 0).isLt
  have ht : (i 0).val / 5000 < grid2.N := by omega
  obtain ⟨-, -, -, -, -, -, -, o0, o1⟩ := mlp2_idx ⟨_, ht⟩
  refine ⟨⟨_, ht⟩, flush2_7 _, ?_⟩
  have h := ((cfg2.win 7).blk ⟨_, ht⟩).view.emb_mem_set (ix2 (⟨(i 0).val % 5000, Nat.mod_lt _ (by omega)⟩ : Fin 5000) (i 1))
  rwa [show ((cfg2.win 7).blk ⟨_, ht⟩).view.emb (ix2 (⟨(i 0).val % 5000, Nat.mod_lt _ (by omega)⟩ : Fin 5000) (i 1)) = i from
    Shape.idx_ext₂ ((win2_7.rect_emb_val _ _ 0).trans (by
        show _ * 5000 + (i 0).val % 5000 = (i 0).val
        rw [o0]; show (i 0).val / 5000 * 5000 + (i 0).val % 5000 = (i 0).val; omega))
      (win2_7.rect_emb_val_of_index_zero _ 1 o1 _)] at h

theorem mlp2_value (c : Dev nD) : (dat2 (F := Ideal) V c).arrAt 7 cfg2.N = mlp2_G V c :=
  (dat2 (F := Ideal) V c).arrAt_eq_of_cover 7 (mlp2_G V c) (fun t _ => mlp2_flushed_eq V c t) (mlp2_cover)

end Region

theorem mlp2_W7 (m : (ℓ : Loc nD τ sig) → Buf (Elt Ideal) ℓ) (ρ : Dev nD → PrngReg) (c : Dev nD) :
    W7 (F := Ideal) m ρ c (Proc.devRef .tc main_v29) = Spec.mlpR (W6 m ρ c (Proc.devRef .tc main_v5)) (W6 m ρ c (Proc.devRef .tc main_v15)) (W6 m ρ c (Proc.devRef .tc main_v26)) (W6 m ρ c (Proc.devRef .tc main_v19)) (W6 m ρ c (Proc.devRef .tc main_v27)) (W6 m ρ c (Proc.devRef .tc main_v23)) (W6 m ρ c (Proc.devRef .tc main_v28)) :=
  (W7_arr (F := Ideal) m ρ c 7).trans (mlp2_value (V6 m ρ) c)

end Cert.KernelIdeal.KV

end
-- ==== Proof.KMlp5.lean ====
import proofs.«407318_j78761110274299_1_alg».proof.Proof.KMlp2

noncomputable section

namespace Cert.KernelIdeal.KV

open Cert.KernelIdeal Cert.KernelIdeal.Gen Idealize.ShloMosaic Idealize.ShloMosaic.ValueIdx Idealize.ShloMosaic.TcCoe

section Region
variable (V : (c : Dev nD) → (b : Ref sig .tc) → Buf (Elt Ideal) ((c : Thread nD τ).loc b))

abbrev mlp5_harr (c : Dev nD) : Vec Ideal S50000x128 .f32 := V c (Pipeline.arrRef spec5 0)
abbrev mlp5_aarr (c : Dev nD) : Vec Ideal S50000x128 .f32 := V c (Pipeline.arrRef spec5 1)
abbrev mlp5_earr (c : Dev nD) : Vec Ideal S1x1 .f32 := V c (Pipeline.arrRef spec5 2)
abbrev mlp5_w1arr (c : Dev nD) : Vec Ideal S128x256 .f32 := V c (Pipeline.arrRef spec5 3)
abbrev mlp5_b1arr (c : Dev nD) : Vec Ideal S1x256 .f32 := V c (Pipeline.arrRef spec5 4)
abbrev mlp5_w2arr (c : Dev nD) : Vec Ideal S256x128 .f32 := V c (Pipeline.arrRef spec5 5)
abbrev mlp5_b2arr (c : Dev nD) : Vec Ideal S1x128 .f32 := V c (Pipeline.arrRef spec5 6)

abbrev mlp5_G (c : Dev nD) : Vec Ideal S50000x128 .f32 :=
  Spec.mlpR (mlp5_harr V c) (mlp5_aarr V c) (mlp5_earr V c) (mlp5_w1arr V c) (mlp5_b1arr V c) (mlp5_w2arr V c) (mlp5_b2arr V c)

theorem mlp5_idx : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (∀ a : Fin 2, win5_2.index t a = 0) ∧ (∀ a : Fin 2, win5_3.index t a = 0) ∧ (∀ a : Fin 2, win5_4.index t a = 0)
    ∧ (∀ a : Fin 2, win5_5.index t a = 0) ∧ (∀ a : Fin 2, win5_6.index t a = 0)
    ∧ (win5_7.index t (0 : Fin 2) = t.val ∧ win5_7.index t (1 : Fin 2) = 0) :=
  (by decide +kernel : ∀ t : Fin grid5.N, _)

-- Row p of block t is row 5000 t + p of each tall array, and each small block is its whole array, so the rows agree.
theorem mlp5_flushed_eq (c : Dev nD) (t : Fin cfg5.N) :
    (dat5 (F := Ideal) V c).flushed 7 t = ((cfg5.win 7).blk t).view.read (Elt Ideal) (mlp5_G V c) := by
  have ht : t.val < 10 := N_5 ▸ t.isLt
  obtain ⟨⟨h0, h1⟩, ⟨a0, a1⟩, ze, zw1, zb1, zw2, zb2, o0, o1⟩ := mlp5_idx t
  show (cfg5.win 7).cut (grid5.coords t) ((dat5 V c).after 7 t) = _
  rw [after5_7]
  funext j
  obtain ⟨p, q, rfl⟩ : ∃ (p : Fin 5000) (q : Fin 128), j = ix2 p q := ⟨j 0, j 1, eq_ix2 j⟩
  have hr : t.val * 5000 + p.val < 50000 := by omega
  have hemb : ((cfg5.win 7).blk t).view.emb (ix2 p q) = ix2 (⟨_, hr⟩ : Fin 50000) q :=
    Shape.idx_ext₂ ((win5_7.rect_emb_val t _ 0).trans (by show _ * 5000 + p.val = t.val * 5000 + p.val; rw [o0]))
      (win5_7.rect_emb_val_of_index_zero t 1 o1 _)
  have hh : ∀ i : Fin 128, iblk5 V c 0 t (ix2 p i) = mlp5_harr V c (ix2 ⟨_, hr⟩ i) := fun i =>
    congrArg (mlp5_harr V c) (Shape.idx_ext₂ ((win5_0.rect_emb_val t (ix2 p i) 0).trans (by show _ * 5000 + p.val = t.val * 5000 + p.val; rw [h0]))
      (win5_0.rect_emb_val_of_index_zero t 1 h1 _))
  have ha : ∀ i : Fin 128, iblk5 V c 1 t (ix2 p i) = mlp5_aarr V c (ix2 ⟨_, hr⟩ i) := fun i =>
    congrArg (mlp5_aarr V c) (Shape.idx_ext₂ ((win5_1.rect_emb_val t (ix2 p i) 0).trans (by show _ * 5000 + p.val = t.val * 5000 + p.val; rw [a0]))
      (win5_1.rect_emb_val_of_index_zero t 1 a1 _))
  have he : iblk5 V c 2 t = mlp5_earr V c :=
    funext fun y => congrArg (mlp5_earr V c) (funext fun a => Fin.ext (win5_2.rect_emb_val_of_index_zero t a (ze a) y))
  have hw1 : iblk5 V c 3 t = mlp5_w1arr V c :=
    funext fun y => congrArg (mlp5_w1arr V c) (funext fun a => Fin.ext (win5_3.rect_emb_val_of_index_zero t a (zw1 a) y))
  have hb1 : iblk5 V c 4 t = mlp5_b1arr V c :=
    funext fun y => congrArg (mlp5_b1arr V c) (funext fun a => Fin.ext (win5_4.rect_emb_val_of_index_zero t a (zb1 a) y))
  have hw2 : iblk5 V c 5 t = mlp5_w2arr V c :=
    funext fun y => congrArg (mlp5_w2arr V c) (funext fun a => Fin.ext (win5_5.rect_emb_val_of_index_zero t a (zw2 a) y))
  have hb2 : iblk5 V c 6 t = mlp5_b2arr V c :=
    funext fun y => congrArg (mlp5_b2arr V c) (funext fun a => Fin.ext (win5_6.rect_emb_val_of_index_zero t a (zb2 a) y))
  show out5_7 (F := Ideal) (iblk5 V c 0 t) (iblk5 V c 1 t) (iblk5 V c 2 t) (iblk5 V c 3 t) (iblk5 V c 4 t) (iblk5 V c 5 t) (iblk5 V c 6 t) (ix2 p q)
    = mlp5_G V c (((cfg5.win 7).blk t).view.emb (ix2 p q))
  rw [hemb, he, hw1, hb1, hw2, hb2]
  exact (mlp2_out_apply _ _ _ _ _ _ _ p q).trans (mlp2_rows _ _ _ _ _ _ _ _ _ p ⟨_, hr⟩ q hh ha)

-- Row r lies in the block of grid point r / 5000, at row r % 5000 of it.
theorem mlp5_cover (i : S50000x128.Idx) : ∃ t : Fin cfg5.N, (cfg5.win 7).flush t = true ∧ i ∈ ((cfg5.win 7).blk t).view.set := by
  have hN : grid5.N = 10 := N_5
  have hi0 : (i 0).val < 50000 := (i 0).isLt
  have ht : (i 0).val / 5000 < grid5.N := by omega
  obtain ⟨-, -, -, -, -, -, -, o0, o1⟩ := mlp5_idx ⟨_, ht⟩
  refine ⟨⟨_, ht⟩, flush5_7 _, ?_⟩
  have h := ((cfg5.win 7).blk ⟨_, ht⟩).view.emb_mem_set (ix2 (⟨(i 0).val % 5000, Nat.mod_lt _ (by omega)⟩ : Fin 5000) (i 1))
  rwa [show ((cfg5.win 7).blk ⟨_, ht⟩).view.emb (ix2 (⟨(i 0).val % 5000, Nat.mod_lt _ (by omega)⟩ : Fin 5000) (i 1)) = i from
    Shape.idx_ext₂ ((win5_7.rect_emb_val _ _ 0).trans (by
        show _ * 5000 + (i 0).val % 5000 = (i 0).val
        rw [o0]; show (i 0).val / 5000 * 5000 + (i 0).val % 5000 = (i 0).val; omega))
      (win5_7.rect_emb_val_of_index_zero _ 1 o1 _)] at h

theorem mlp5_value (c : Dev nD) : (dat5 (F := Ideal) V c).arrAt 7 cfg5.N = mlp5_G V c :=
  (dat5 (F := Ideal) V c).arrAt_eq_of_cover 7 (mlp5_G V c) (fun t _ => mlp5_flushed_eq V c t) (mlp5_cover)

end Region

theorem mlp5_W7 (m : (ℓ : Loc nD τ sig) → Buf (Elt Ideal) ℓ) (ρ : Dev nD → PrngReg) (c : Dev nD) :
    W14 (F := Ideal) m ρ c (Proc.devRef .tc main_v72) = Spec.mlpR (W13 m ρ c (Proc.devRef .tc main_v48)) (W13 m ρ c (Proc.devRef .tc main_v58)) (W13 m ρ c (Proc.devRef .tc main_v69)) (W13 m ρ c (Proc.devRef .tc main_v62)) (W13 m ρ c (Proc.devRef .tc main_v70)) (W13 m ρ c (Proc.devRef .tc main_v66)) (W13 m ρ c (Proc.devRef .tc main_v71)) :=
  (W14_arr (F := Ideal) m ρ c 7).trans (mlp5_value (V13 m ρ) c)

end Cert.KernelIdeal.KV

end
-- ==== Proof.KMlp8.lean ====
import proofs.«407318_j78761110274299_1_alg».proof.Proof.KMlp2

noncomputable section

namespace Cert.KernelIdeal.KV

open Cert.KernelIdeal Cert.KernelIdeal.Gen Idealize.ShloMosaic Idealize.ShloMosaic.ValueIdx Idealize.ShloMosaic.TcCoe

section Region
variable (V : (c : Dev nD) → (b : Ref sig .tc) → Buf (Elt Ideal) ((c : Thread nD τ).loc b))

abbrev mlp8_harr (c : Dev nD) : Vec Ideal S50000x128 .f32 := V c (Pipeline.arrRef spec8 0)
abbrev mlp8_aarr (c : Dev nD) : Vec Ideal S50000x128 .f32 := V c (Pipeline.arrRef spec8 1)
abbrev mlp8_earr (c : Dev nD) : Vec Ideal S1x1 .f32 := V c (Pipeline.arrRef spec8 2)
abbrev mlp8_w1arr (c : Dev nD) : Vec Ideal S128x256 .f32 := V c (Pipeline.arrRef spec8 3)
abbrev mlp8_b1arr (c : Dev nD) : Vec Ideal S1x256 .f32 := V c (Pipeline.arrRef spec8 4)
abbrev mlp8_w2arr (c : Dev nD) : Vec Ideal S256x128 .f32 := V c (Pipeline.arrRef spec8 5)
abbrev mlp8_b2arr (c : Dev nD) : Vec Ideal S1x128 .f32 := V c (Pipeline.arrRef spec8 6)

abbrev mlp8_G (c : Dev nD) : Vec Ideal S50000x128 .f32 :=
  Spec.mlpR (mlp8_harr V c) (mlp8_aarr V c) (mlp8_earr V c) (mlp8_w1arr V c) (mlp8_b1arr V c) (mlp8_w2arr V c) (mlp8_b2arr V c)

theorem mlp8_idx : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (∀ a : Fin 2, win8_2.index t a = 0) ∧ (∀ a : Fin 2, win8_3.index t a = 0) ∧ (∀ a : Fin 2, win8_4.index t a = 0)
    ∧ (∀ a : Fin 2, win8_5.index t a = 0) ∧ (∀ a : Fin 2, win8_6.index t a = 0)
    ∧ (win8_7.index t (0 : Fin 2) = t.val ∧ win8_7.index t (1 : Fin 2) = 0) :=
  (by decide +kernel : ∀ t : Fin grid8.N, _)

-- Row p of block t is row 5000 t + p of each tall array, and each small block is its whole array, so the rows agree.
theorem mlp8_flushed_eq (c : Dev nD) (t : Fin cfg8.N) :
    (dat8 (F := Ideal) V c).flushed 7 t = ((cfg8.win 7).blk t).view.read (Elt Ideal) (mlp8_G V c) := by
  have ht : t.val < 10 := N_8 ▸ t.isLt
  obtain ⟨⟨h0, h1⟩, ⟨a0, a1⟩, ze, zw1, zb1, zw2, zb2, o0, o1⟩ := mlp8_idx t
  show (cfg8.win 7).cut (grid8.coords t) ((dat8 V c).after 7 t) = _
  rw [after8_7]
  funext j
  obtain ⟨p, q, rfl⟩ : ∃ (p : Fin 5000) (q : Fin 128), j = ix2 p q := ⟨j 0, j 1, eq_ix2 j⟩
  have hr : t.val * 5000 + p.val < 50000 := by omega
  have hemb : ((cfg8.win 7).blk t).view.emb (ix2 p q) = ix2 (⟨_, hr⟩ : Fin 50000) q :=
    Shape.idx_ext₂ ((win8_7.rect_emb_val t _ 0).trans (by show _ * 5000 + p.val = t.val * 5000 + p.val; rw [o0]))
      (win8_7.rect_emb_val_of_index_zero t 1 o1 _)
  have hh : ∀ i : Fin 128, iblk8 V c 0 t (ix2 p i) = mlp8_harr V c (ix2 ⟨_, hr⟩ i) := fun i =>
    congrArg (mlp8_harr V c) (Shape.idx_ext₂ ((win8_0.rect_emb_val t (ix2 p i) 0).trans (by show _ * 5000 + p.val = t.val * 5000 + p.val; rw [h0]))
      (win8_0.rect_emb_val_of_index_zero t 1 h1 _))
  have ha : ∀ i : Fin 128, iblk8 V c 1 t (ix2 p i) = mlp8_aarr V c (ix2 ⟨_, hr⟩ i) := fun i =>
    congrArg (mlp8_aarr V c) (Shape.idx_ext₂ ((win8_1.rect_emb_val t (ix2 p i) 0).trans (by show _ * 5000 + p.val = t.val * 5000 + p.val; rw [a0]))
      (win8_1.rect_emb_val_of_index_zero t 1 a1 _))
  have he : iblk8 V c 2 t = mlp8_earr V c :=
    funext fun y => congrArg (mlp8_earr V c) (funext fun a => Fin.ext (win8_2.rect_emb_val_of_index_zero t a (ze a) y))
  have hw1 : iblk8 V c 3 t = mlp8_w1arr V c :=
    funext fun y => congrArg (mlp8_w1arr V c) (funext fun a => Fin.ext (win8_3.rect_emb_val_of_index_zero t a (zw1 a) y))
  have hb1 : iblk8 V c 4 t = mlp8_b1arr V c :=
    funext fun y => congrArg (mlp8_b1arr V c) (funext fun a => Fin.ext (win8_4.rect_emb_val_of_index_zero t a (zb1 a) y))
  have hw2 : iblk8 V c 5 t = mlp8_w2arr V c :=
    funext fun y => congrArg (mlp8_w2arr V c) (funext fun a => Fin.ext (win8_5.rect_emb_val_of_index_zero t a (zw2 a) y))
  have hb2 : iblk8 V c 6 t = mlp8_b2arr V c :=
    funext fun y => congrArg (mlp8_b2arr V c) (funext fun a => Fin.ext (win8_6.rect_emb_val_of_index_zero t a (zb2 a) y))
  show out8_7 (F := Ideal) (iblk8 V c 0 t) (iblk8 V c 1 t) (iblk8 V c 2 t) (iblk8 V c 3 t) (iblk8 V c 4 t) (iblk8 V c 5 t) (iblk8 V c 6 t) (ix2 p q)
    = mlp8_G V c (((cfg8.win 7).blk t).view.emb (ix2 p q))
  rw [hemb, he, hw1, hb1, hw2, hb2]
  exact (mlp2_out_apply _ _ _ _ _ _ _ p q).trans (mlp2_rows _ _ _ _ _ _ _ _ _ p ⟨_, hr⟩ q hh ha)

-- Row r lies in the block of grid point r / 5000, at row r % 5000 of it.
theorem mlp8_cover (i : S50000x128.Idx) : ∃ t : Fin cfg8.N, (cfg8.win 7).flush t = true ∧ i ∈ ((cfg8.win 7).blk t).view.set := by
  have hN : grid8.N = 10 := N_8
  have hi0 : (i 0).val < 50000 := (i 0).isLt
  have ht : (i 0).val / 5000 < grid8.N := by omega
  obtain ⟨-, -, -, -, -, -, -, o0, o1⟩ := mlp8_idx ⟨_, ht⟩
  refine ⟨⟨_, ht⟩, flush8_7 _, ?_⟩
  have h := ((cfg8.win 7).blk ⟨_, ht⟩).view.emb_mem_set (ix2 (⟨(i 0).val % 5000, Nat.mod_lt _ (by omega)⟩ : Fin 5000) (i 1))
  rwa [show ((cfg8.win 7).blk ⟨_, ht⟩).view.emb (ix2 (⟨(i 0).val % 5000, Nat.mod_lt _ (by omega)⟩ : Fin 5000) (i 1)) = i from
    Shape.idx_ext₂ ((win8_7.rect_emb_val _ _ 0).trans (by
        show _ * 5000 + (i 0).val % 5000 = (i 0).val
        rw [o0]; show (i 0).val / 5000 * 5000 + (i 0).val % 5000 = (i 0).val; omega))
      (win8_7.rect_emb_val_of_index_zero _ 1 o1 _)] at h

theorem mlp8_value (c : Dev nD) : (dat8 (F := Ideal) V c).arrAt 7 cfg8.N = mlp8_G V c :=
  (dat8 (F := Ideal) V c).arrAt_eq_of_cover 7 (mlp8_G V c) (fun t _ => mlp8_flushed_eq V c t) (mlp8_cover)

end Region

theorem mlp8_W7 (m : (ℓ : Loc nD τ sig) → Buf (Elt Ideal) ℓ) (ρ : Dev nD → PrngReg) (c : Dev nD) :
    W21 (F := Ideal) m ρ c (Proc.devRef .tc main_v115) = Spec.mlpR (W20 m ρ c (Proc.devRef .tc main_v91)) (W20 m ρ c (Proc.devRef .tc main_v101)) (W20 m ρ c (Proc.devRef .tc main_v112)) (W20 m ρ c (Proc.devRef .tc main_v105)) (W20 m ρ c (Proc.devRef .tc main_v113)) (W20 m ρ c (Proc.devRef .tc main_v109)) (W20 m ρ c (Proc.devRef .tc main_v114)) :=
  (W21_arr (F := Ideal) m ρ c 7).trans (mlp8_value (V20 m ρ) c)

end Cert.KernelIdeal.KV

end
-- ==== Proof.KBn3.lean ====
import proofs.«407318_j78761110274299_1_alg».proof.Proof.Gen.KernelIdeal.Frame
import proofs.«407318_j78761110274299_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx

theorem bn3_zero2 : (![0, 0] : Fin 2 → Nat) = fun _ => 0 :=
  funext fun a => match a with | ⟨0, _⟩ => rfl | ⟨1, _⟩ => rfl

theorem bn3_rsqrt_at {s : Shape} {φ : FTy} (a : FVec Ideal s φ) (i : s.Idx) : rsqrt a i = Ideal.rsqrt (a i) := rfl

-- Every operation of the body acts entry by entry; a one-row operand is read at row 0 of the same column.
theorem bn3_pay (var g : Vec Ideal S1x128 .f32) (z : Vec Ideal S5000x128 .f32) (mu beta : Vec Ideal S1x128 .f32)
    (p : Fin 5000) (q : Fin 128) :
    k3_pay1 (F := Ideal) var g z mu beta (ix2 p q)
      = max (g (ix2 0 q) * (z (ix2 p q) - mu (ix2 0 q)) * Ideal.rsqrt (var (ix2 0 q) + Spec.bnEpsW) + beta (ix2 0 q)) Spec.zeroW := by
  unfold k3_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rw [bn3_rsqrt_at, addf_apply, broadcast_apply]
  rfl

-- The block's entry at `j` is the table's entry at any `k` of the same column where the tall operand has the block's entry.
theorem bn3_point (z : Vec Ideal S50000x128 .f32) (mu var g beta : Vec Ideal S1x128 .f32)
    (zb : Vec Ideal S5000x128 .f32) (mub varb gb betab : Vec Ideal S1x128 .f32) (j : S5000x128.Idx) (k : S50000x128.Idx)
    (hz : z k = zb j) (hk1 : (k 1).val = (j 1).val)
    (hmu : mu = mub) (hvar : var = varb) (hg : g = gb) (hbeta : beta = betab) :
    k3_pay1 (F := Ideal) varb gb zb mub betab j = Spec.bnR z mu var g beta k := by
  subst hmu hvar hg hbeta
  obtain ⟨p, q, rfl⟩ : ∃ (p : Fin 5000) (q : Fin 128), j = ix2 p q := ⟨j 0, j 1, eq_ix2 j⟩
  obtain ⟨r, s, rfl⟩ : ∃ (r : Fin 50000) (s : Fin 128), k = ix2 r s := ⟨k 0, k 1, eq_ix2 k⟩
  obtain rfl : s = q := Fin.ext hk1
  rw [bn3_pay, Spec.bnR_ix2, ← hz]
  rfl

-- A block at block index zero on every axis holds each entry of the array at the entry's own coordinates.
theorem bn3_whole_blk {G : Pipeline.Grid} (w : Pipeline.Window sig G) (t : Fin G.N) (h : ∀ a, w.index t a = 0) {α : Type}
    (A : w.shape.Idx → α) (y : (w.xblock (G.coords t)).Idx) (k : w.shape.Idx) (hk : ∀ a, (k a : ℕ) = y a) :
    A k = A ((w.rect t).emb y) :=
  congrArg A (funext fun a => Fin.ext ((hk a).trans (w.rect_emb_val_of_index_zero t a (h a) y).symm))

theorem bn3_idx : ∀ t : Fin cfg3.N,
    (win3_5.index t (0 : Fin 2) = t.val ∧ win3_5.index t (1 : Fin 2) = 0)
    ∧ (∀ a : Fin 2, win3_1.index t a = 0) ∧ (∀ a : Fin 2, win3_2.index t a = 0)
    ∧ (∀ a : Fin 2, win3_3.index t a = 0) ∧ (∀ a : Fin 2, win3_4.index t a = 0) :=
  (by decide +kernel : ∀ t : Fin grid3.N, _)

-- Row `r` of the result is row `r % 5000` of the block of point `r / 5000`.
theorem bn3_cover (i : S50000x128.Idx) :
    ∃ t : Fin cfg3.N, (cfg3.win 5).flush t = true ∧ i ∈ ((cfg3.win 5).blk t).view.set := by
  have ht : (i 0).val / 5000 < cfg3.N := by rw [show cfg3.N = 10 from N_3]; have := idx2_lt0 i; omega
  obtain ⟨⟨o0, o1⟩, -⟩ := bn3_idx ⟨_, ht⟩
  have hm : (i 0).val % 5000 < 5000 := Nat.mod_lt _ (by decide)
  have e : (win3_5.rect ⟨_, ht⟩).emb (ix2 ⟨_, hm⟩ (i 1)) = i :=
    Shape.idx_ext₂
      ((win3_5.rect_emb_val ⟨_, ht⟩ _ 0).trans
        ((congrArg (fun n => n * 5000 + (i 0).val % 5000) o0).trans (Nat.div_add_mod' _ _)))
      (win3_5.rect_emb_val_of_index_zero ⟨_, ht⟩ 1 o1 _)
  exact ⟨⟨_, ht⟩, flush3_5 _, Finset.mem_map.mpr ⟨_, Finset.mem_univ _, e⟩⟩

set_option maxHeartbeats 1000000 in
-- The tall operand's block and the result's block sit at the same rows; every one-row operand's block is its array.
theorem bn3_W9 (m : (ℓ : Loc nD τ sig) → Buf (Elt Ideal) ℓ) (ρ : Dev nD → PrngReg) (c : Dev nD) :
    W9 (F := Ideal) m ρ c (Proc.devRef .tc main_v48)
      = Spec.bnR (W8 m ρ c (Proc.devRef .tc main_v29)) (W8 m ρ c (Proc.devRef .tc main_v44))
          (W8 m ρ c (Proc.devRef .tc main_v45)) (W8 m ρ c (Proc.devRef .tc main_v46)) (W8 m ρ c (Proc.devRef .tc main_v47)) := by
  refine (W9_arr (F := Ideal) m ρ c 5).trans
    ((dat3 (F := Ideal) (V8 m ρ) c).arrAt_eq_of_cover 5 _ (fun t _ => ?_) bn3_cover)
  obtain ⟨⟨-, o1⟩, h1, h2, h3, h4⟩ := bn3_idx t
  show (cfg3.win 5).cut (grid3.coords t) ((dat3 (V8 m ρ) c).after 5 t) = _
  rw [after3_5]
  unfold out3_5
  rw [View.canon_unit_zero bn3_zero2]
  simp only [View.ld_unit_zero (S := S5000x128) bn3_zero2, View.ld_unit_zero (S := S1x128) bn3_zero2]
  funext j
  show k3_pay1 (F := Ideal) _ _ _ _ _ j = Spec.bnR _ _ _ _ _ (((cfg3.win 5).blk t).view.emb j)
  refine bn3_point _ _ _ _ _ _ _ _ _ _ j _ ?_ (win3_5.rect_emb_val_of_index_zero t 1 o1 j) ?_ ?_ ?_ ?_
  · rfl
  · exact funext fun x => bn3_whole_blk win3_1 t h1 _ x x fun _ => rfl
  · exact funext fun x => bn3_whole_blk win3_2 t h2 _ x x fun _ => rfl
  · exact funext fun x => bn3_whole_blk win3_3 t h3 _ x x fun _ => rfl
  · exact funext fun x => bn3_whole_blk win3_4 t h4 _ x x fun _ => rfl

end Cert.KernelIdeal.KV

end
-- ==== Proof.KBn6.lean ====
import proofs.«407318_j78761110274299_1_alg».proof.Proof.KBn3

noncomputable section

namespace Cert.KernelIdeal.KV

open Cert.KernelIdeal Cert.KernelIdeal.Gen Idealize.ShloMosaic Idealize.ShloMosaic.ValueIdx

set_option maxHeartbeats 1000000 in
-- The grid and the index maps are those of the first such call, so its index facts and its cover serve here.
theorem bn6_W16 (m : (ℓ : Loc nD τ sig) → Buf (Elt Ideal) ℓ) (ρ : Dev nD → PrngReg) (c : Dev nD) :
    W16 (F := Ideal) m ρ c (Proc.devRef .tc main_v91)
      = Spec.bnR (W15 m ρ c (Proc.devRef .tc main_v72)) (W15 m ρ c (Proc.devRef .tc main_v87))
          (W15 m ρ c (Proc.devRef .tc main_v88)) (W15 m ρ c (Proc.devRef .tc main_v89)) (W15 m ρ c (Proc.devRef .tc main_v90)) := by
  refine (W16_arr (F := Ideal) m ρ c 5).trans
    ((dat6 (F := Ideal) (V15 m ρ) c).arrAt_eq_of_cover 5 _ (fun t _ => ?_) bn3_cover)
  obtain ⟨⟨-, o1⟩, h1, h2, h3, h4⟩ := bn3_idx t
  show (cfg6.win 5).cut (grid6.coords t) ((dat6 (V15 m ρ) c).after 5 t) = _
  rw [after6_5]
  unfold out6_5
  rw [View.canon_unit_zero bn3_zero2]
  simp only [View.ld_unit_zero (S := S5000x128) bn3_zero2, View.ld_unit_zero (S := S1x128) bn3_zero2]
  funext j
  show k6_pay1 (F := Ideal) _ _ _ _ _ j = Spec.bnR _ _ _ _ _ (((cfg6.win 5).blk t).view.emb j)
  refine bn3_point _ _ _ _ _ _ _ _ _ _ j _ ?_ (win6_5.rect_emb_val_of_index_zero t 1 o1 j) ?_ ?_ ?_ ?_
  · rfl
  · exact funext fun x => bn3_whole_blk win6_1 t h1 _ x x fun _ => rfl
  · exact funext fun x => bn3_whole_blk win6_2 t h2 _ x x fun _ => rfl
  · exact funext fun x => bn3_whole_blk win6_3 t h3 _ x x fun _ => rfl
  · exact funext fun x => bn3_whole_blk win6_4 t h4 _ x x fun _ => rfl

end Cert.KernelIdeal.KV

end
-- ==== Proof.KBn9.lean ====
import proofs.«407318_j78761110274299_1_alg».proof.Proof.KBn3

noncomputable section

namespace Cert.KernelIdeal.KV

open Cert.KernelIdeal Cert.KernelIdeal.Gen Idealize.ShloMosaic Idealize.ShloMosaic.ValueIdx

set_option maxHeartbeats 1000000 in
-- The grid and the index maps are those of the first such call, so its index facts and its cover serve here.
theorem bn9_W23 (m : (ℓ : Loc nD τ sig) → Buf (Elt Ideal) ℓ) (ρ : Dev nD → PrngReg) (c : Dev nD) :
    W23 (F := Ideal) m ρ c (Proc.devRef .tc main_v134)
      = Spec.bnR (W22 m ρ c (Proc.devRef .tc main_v115)) (W22 m ρ c (Proc.devRef .tc main_v130))
          (W22 m ρ c (Proc.devRef .tc main_v131)) (W22 m ρ c (Proc.devRef .tc main_v132)) (W22 m ρ c (Proc.devRef .tc main_v133)) := by
  refine (W23_arr (F := Ideal) m ρ c 5).trans
    ((dat9 (F := Ideal) (V22 m ρ) c).arrAt_eq_of_cover 5 _ (fun t _ => ?_) bn3_cover)
  obtain ⟨⟨-, o1⟩, h1, h2, h3, h4⟩ := bn3_idx t
  show (cfg9.win 5).cut (grid9.coords t) ((dat9 (V22 m ρ) c).after 5 t) = _
  rw [after9_5]
  unfold out9_5
  rw [View.canon_unit_zero bn3_zero2]
  simp only [View.ld_unit_zero (S := S5000x128) bn3_zero2, View.ld_unit_zero (S := S1x128) bn3_zero2]
  funext j
  show k9_pay1 (F := Ideal) _ _ _ _ _ j = Spec.bnR _ _ _ _ _ (((cfg9.win 5).blk t).view.emb j)
  refine bn3_point _ _ _ _ _ _ _ _ _ _ j _ ?_ (win9_5.rect_emb_val_of_index_zero t 1 o1 j) ?_ ?_ ?_ ?_
  · rfl
  · exact funext fun x => bn3_whole_blk win9_1 t h1 _ x x fun _ => rfl
  · exact funext fun x => bn3_whole_blk win9_2 t h2 _ x x fun _ => rfl
  · exact funext fun x => bn3_whole_blk win9_3 t h3 _ x x fun _ => rfl
  · exact funext fun x => bn3_whole_blk win9_4 t h4 _ x x fun _ => rfl

end Cert.KernelIdeal.KV

end
-- ==== Proof.RefOps.lean ====
import proofs.«407318_j78761110274299_1_alg».proof.ReferenceIdeal
import proofs.«407318_j78761110274299_1_alg».proof.Proof.Gen.ReferenceIdeal

noncomputable section

namespace Cert.RefOps

open Cert.ReferenceIdeal Cert.ReferenceIdeal.Gen Idealize.ShloMosaic Idealize.ShloMosaic.TcCoe

variable {F : FTy → Type} [FloatOps F]

def rows128 (v : FVec F S128 .f32) : FVec F S50000x128 .f32 :=
  broadcastInDim S50000x128 ![0, 1] bcast_S1x128_S50000x128_0_1 (broadcastInDim S1x128 ![1] bcast_S128_S1x128_1 v)

def zeros50000x128 : FVec F S50000x128 .f32 := broadcastInDim S50000x128 ![] bcast_S_S50000x128 (constant S_ .f32 0x00000000#32)

def lin (x : FVec F S50000x64 .f32) (w : FVec F S64x128 .f32) (b : FVec F S128 .f32) : FVec F S50000x128 .f32 :=
  addf (Host.dotGeneral dot_S50000x64_S64x128_S50000x128_1_0_0_1_n_n none x w) (rows128 b)

def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def take (h : FVec F S50000x128 .f32) (src : IVec S800000 32) : FVec F S800000x128 .f32 :=
  Host.gather gather_S50000x128_S800000x1_S800000x128_1_0_n_n_0_1_1128 h (srcIdx src)

def msg (ea : FVec F S800000x16 .f32) (hs : FVec F S800000x128 .f32) (w : FVec F S16x128 .f32) (b : FVec F S128 .f32) :
    FVec F S800000x128 .f32 :=
  maximumf
    (addf hs (addf (Host.dotGeneral dot_S800000x16_S16x128_S800000x128_1_0_0_1_n_n none ea w)
      (broadcastInDim S800000x128 ![0, 1] bcast_S1x128_S800000x128_0_1 (broadcastInDim S1x128 ![1] bcast_S128_S1x128_1 b))))
    (broadcastInDim S800000x128 ![] bcast_S_S800000x128 (constant S_ .f32 0x00000000#32))

def agg (dst : IVec S800000 32) (m : FVec F S800000x128 .f32) : FVec F S50000x128 .f32 :=
  Host.scatterAdd scatter_S50000x128_S800000x1_S800000x128_1_0_0_1 zeros50000x128
    (broadcastInDim S800000x1 ![0] bcast_S800000_S800000x1_0 dst) m

def mlp (h a : FVec F S50000x128 .f32) (eps : FVec F S_ .f32) (w1 : FVec F S128x256 .f32) (b1 : FVec F S256 .f32)
    (w2 : FVec F S256x128 .f32) (b2 : FVec F S128 .f32) : FVec F S50000x128 .f32 :=
  addf
    (Host.dotGeneral dot_S50000x256_S256x128_S50000x128_1_0_0_1_n_n none
      (maximumf
        (addf
          (Host.dotGeneral dot_S50000x128_S128x256_S50000x256_1_0_0_1_n_n none
            (addf (mulf (broadcastInDim S50000x128 ![] bcast_S_S50000x128 (addf (constant S_ .f32 0x3F800000#32) eps)) h) a) w1)
          (broadcastInDim S50000x256 ![0, 1] bcast_S1x256_S50000x256_0_1 (broadcastInDim S1x256 ![1] bcast_S256_S1x256_1 b1)))
        (broadcastInDim S50000x256 ![] bcast_S_S50000x256 (constant S_ .f32 0x00000000#32)))
      w2)
    (rows128 b2)

def colMean (z : FVec F S50000x128 .f32) : FVec F S128 .f32 :=
  Host.divf (Host.reduceAdd z (constant S_ .f32 0x00000000#32) reducesTo_S50000x128_S128_d0 h_S_)
    (broadcastInDim S128 ![] bcast_S_S128 (constant S_ .f32 0x47435000#32))

def colVar (z : FVec F S50000x128 .f32) (mu : FVec F S128 .f32) : FVec F S128 .f32 :=
  colMean (mulf (subf z (rows128 mu)) (subf z (rows128 mu)))

def bn (z : FVec F S50000x128 .f32) (mu var g beta : FVec F S128 .f32) : FVec F S50000x128 .f32 :=
  maximumf
    (addf
      (mulf (mulf (rows128 g) (subf z (rows128 mu)))
        (rows128 (Host.rsqrt (addf var (broadcastInDim S128 ![] bcast_S_S128 (constant S_ .f32 0x3727C5AC#32))))))
      (rows128 beta))
    zeros50000x128

/-- One layer: gather, message, sum by destination, perceptron, column statistics, normalisation. -/
def layer (h : FVec F S50000x128 .f32) (src dst : IVec S800000 32) (ea : FVec F S800000x16 .f32)
    (w : FVec F S16x128 .f32) (b : FVec F S128 .f32) (eps : FVec F S_ .f32) (w1 : FVec F S128x256 .f32) (b1 : FVec F S256 .f32)
    (w2 : FVec F S256x128 .f32) (b2 : FVec F S128 .f32) (g beta : FVec F S128 .f32) : FVec F S50000x128 .f32 :=
  bn (mlp h (agg dst (msg ea (take h src) w b)) eps w1 b1 w2 b2)
    (colMean (mlp h (agg dst (msg ea (take h src) w b)) eps w1 b1 w2 b2))
    (colVar (mlp h (agg dst (msg ea (take h src) w b)) eps w1 b1 w2 b2) (colMean (mlp h (agg dst (msg ea (take h src) w b)) eps w1 b1 w2 b2)))
    g beta

def pool (batch : IVec S50000 32) (h : FVec F S50000x128 .f32) : FVec F S128x128 .f32 :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 batch) h)
    (broadcastInDim S128x128 ![0, 1] bcast_S128x1_S128x128_0_1
      (broadcastInDim S128x1 ![0] bcast_S128_S128x1_0
        (maximumf
          (Host.scatterAdd scatter_S128_S50000x1_S50000_n_0_0_1
            (broadcastInDim S128 ![] bcast_S_S128 (constant S_ .f32 0x00000000#32))
            (broadcastInDim S50000x1 ![0] bcast_S50000_S50000x1_0 batch)
            (broadcastInDim S50000 ![] bcast_S_S50000 (constant S_ .f32 0x3F800000#32)))
          (broadcastInDim S128 ![] bcast_S_S128 (constant S_ .f32 0x3F800000#32)))))

def fin (p : FVec F S128x128 .f32) (w : FVec F S128x16 .f32) (b : FVec F S16 .f32) : FVec F S128x16 .f32 :=
  addf (Host.dotGeneral dot_S128x128_S128x16_S128x16_1_0_0_1_n_n none p w)
    (broadcastInDim S128x16 ![0, 1] bcast_S1x16_S128x16_0_1 (broadcastInDim S1x16 ![1] bcast_S16_S1x16_1 b))

def srcOf (a1 : IVec S2x800000 32) : IVec S800000 32 :=
  shapeCast _ (extractStridedSlice S1x800000 ![0, 0] a1 slices_S2x800000_S1x800000_0_0) shapeCasts_S1x800000_S800000

def dstOf (a1 : IVec S2x800000 32) : IVec S800000 32 :=
  shapeCast _ (extractStridedSlice S1x800000 ![1, 0] a1 slices_S2x800000_S1x800000_1_0) shapeCasts_S1x800000_S800000

def layer0 (h : FVec F S50000x128 .f32) (a1 : IVec S2x800000 32) (a3 : FVec F S800000x16 .f32) (a6 : FVec F S3x16x128 .f32)
    (a7 : FVec F S3x128 .f32) (a8 : FVec F S3x128x256 .f32) (a9 : FVec F S3x256 .f32) (a10 : FVec F S3x256x128 .f32)
    (a11 : FVec F S3x128 .f32) (a12 : FVec F S3 .f32) (a13 a14 : FVec F S3x128 .f32) : FVec F S50000x128 .f32 :=
  layer h (srcOf a1) (dstOf a1) a3
    (shapeCast _ (extractStridedSlice S1x16x128 ![0, 0, 0] a6 slices_S3x16x128_S1x16x128_0_0_0) shapeCasts_S1x16x128_S16x128)
    (shapeCast _ (extractStridedSlice S1x128 ![0, 0] a7 slices_S3x128_S1x128_0_0) shapeCasts_S1x128_S128)
    (shapeCast _ (extractStridedSlice S1 ![0] a12 slices_S3_S1_0) shapeCasts_S1_S_)
    (shapeCast _ (extractStridedSlice S1x128x256 ![0, 0, 0] a8 slices_S3x128x256_S1x128x256_0_0_0) shapeCasts_S1x128x256_S128x256)
    (shapeCast _ (extractStridedSlice S1x256 ![0, 0] a9 slices_S3x256_S1x256_0_0) shapeCasts_S1x256_S256)
    (shapeCast _ (extractStridedSlice S1x256x128 ![0, 0, 0] a10 slices_S3x256x128_S1x256x128_0_0_0) shapeCasts_S1x256x128_S256x128)
    (shapeCast _ (extractStridedSlice S1x128 ![0, 0] a11 slices_S3x128_S1x128_0_0) shapeCasts_S1x128_S128)
    (shapeCast _ (extractStridedSlice S1x128 ![0, 0] a13 slices_S3x128_S1x128_0_0) shapeCasts_S1x128_S128)
    (shapeCast _ (extractStridedSlice S1x128 ![0, 0] a14 slices_S3x128_S1x128_0_0) shapeCasts_S1x128_S128)

def layer1 (h : FVec F S50000x128 .f32) (a1 : IVec S2x800000 32) (a3 : FVec F S800000x16 .f32) (a6 : FVec F S3x16x128 .f32)
    (a7 : FVec F S3x128 .f32) (a8 : FVec F S3x128x256 .f32) (a9 : FVec F S3x256 .f32) (a10 : FVec F S3x256x128 .f32)
    (a11 : FVec F S3x128 .f32) (a12 : FVec F S3 .f32) (a13 a14 : FVec F S3x128 .f32) : FVec F S50000x128 .f32 :=
  layer h (srcOf a1) (dstOf a1) a3
    (shapeCast _ (extractStridedSlice S1x16x128 ![1, 0, 0] a6 slices_S3x16x128_S1x16x128_1_0_0) shapeCasts_S1x16x128_S16x128)
    (shapeCast _ (extractStridedSlice S1x128 ![1, 0] a7 slices_S3x128_S1x128_1_0) shapeCasts_S1x128_S128)
    (shapeCast _ (extractStridedSlice S1 ![1] a12 slices_S3_S1_1) shapeCasts_S1_S_)
    (shapeCast _ (extractStridedSlice S1x128x256 ![1, 0, 0] a8 slices_S3x128x256_S1x128x256_1_0_0) shapeCasts_S1x128x256_S128x256)
    (shapeCast _ (extractStridedSlice S1x256 ![1, 0] a9 slices_S3x256_S1x256_1_0) shapeCasts_S1x256_S256)
    (shapeCast _ (extractStridedSlice S1x256x128 ![1, 0, 0] a10 slices_S3x256x128_S1x256x128_1_0_0) shapeCasts_S1x256x128_S256x128)
    (shapeCast _ (extractStridedSlice S1x128 ![1, 0] a11 slices_S3x128_S1x128_1_0) shapeCasts_S1x128_S128)
    (shapeCast _ (extractStridedSlice S1x128 ![1, 0] a13 slices_S3x128_S1x128_1_0) shapeCasts_S1x128_S128)
    (shapeCast _ (extractStridedSlice S1x128 ![1, 0] a14 slices_S3x128_S1x128_1_0) shapeCasts_S1x128_S128)

def layer2 (h : FVec F S50000x128 .f32) (a1 : IVec S2x800000 32) (a3 : FVec F S800000x16 .f32) (a6 : FVec F S3x16x128 .f32)
    (a7 : FVec F S3x128 .f32) (a8 : FVec F S3x128x256 .f32) (a9 : FVec F S3x256 .f32) (a10 : FVec F S3x256x128 .f32)
    (a11 : FVec F S3x128 .f32) (a12 : FVec F S3 .f32) (a13 a14 : FVec F S3x128 .f32) : FVec F S50000x128 .f32 :=
  layer h (srcOf a1) (dstOf a1) a3
    (shapeCast _ (extractStridedSlice S1x16x128 ![2, 0, 0] a6 slices_S3x16x128_S1x16x128_2_0_0) shapeCasts_S1x16x128_S16x128)
    (shapeCast _ (extractStridedSlice S1x128 ![2, 0] a7 slices_S3x128_S1x128_2_0) shapeCasts_S1x128_S128)
    (shapeCast _ (extractStridedSlice S1 ![2] a12 slices_S3_S1_2) shapeCasts_S1_S_)
    (shapeCast _ (extractStridedSlice S1x128x256 ![2, 0, 0] a8 slices_S3x128x256_S1x128x256_2_0_0) shapeCasts_S1x128x256_S128x256)
    (shapeCast _ (extractStridedSlice S1x256 ![2, 0] a9 slices_S3x256_S1x256_2_0) shapeCasts_S1x256_S256)
    (shapeCast _ (extractStridedSlice S1x256x128 ![2, 0, 0] a10 slices_S3x256x128_S1x256x128_2_0_0) shapeCasts_S1x256x128_S256x128)
    (shapeCast _ (extractStridedSlice S1x128 ![2, 0] a11 slices_S3x128_S1x128_2_0) shapeCasts_S1x128_S128)
    (shapeCast _ (extractStridedSlice S1x128 ![2, 0] a13 slices_S3x128_S1x128_2_0) shapeCasts_S1x128_S128)
    (shapeCast _ (extractStridedSlice S1x128 ![2, 0] a14 slices_S3x128_S1x128_2_0) shapeCasts_S1x128_S128)

/-- The network: the first projection, three layers, the mean over each graph, the output projection. -/
def top (a0 : FVec F S50000x64 .f32) (a1 : IVec S2x800000 32) (a2 : IVec S50000 32) (a3 : FVec F S800000x16 .f32)
    (a4 : FVec F S64x128 .f32) (a5 : FVec F S128 .f32) (a6 : FVec F S3x16x128 .f32) (a7 : FVec F S3x128 .f32)
    (a8 : FVec F S3x128x256 .f32) (a9 : FVec F S3x256 .f32) (a10 : FVec F S3x256x128 .f32) (a11 : FVec F S3x128 .f32)
    (a12 : FVec F S3 .f32) (a13 a14 : FVec F S3x128 .f32) (a15 : FVec F S128x16 .f32) (a16 : FVec F S16 .f32) :
    FVec F S128x16 .f32 :=
  fin (pool a2
    (layer2 (layer1 (layer0 (lin a0 a4 a5) a1 a3 a6 a7 a8 a9 a10 a11 a12 a13 a14) a1 a3 a6 a7 a8 a9 a10 a11 a12 a13 a14)
      a1 a3 a6 a7 a8 a9 a10 a11 a12 a13 a14)) a15 a16

end Cert.RefOps

end
-- ==== Proof.KTake.lean ====
import proofs.«407318_j78761110274299_1_alg».proof.Proof.Gen.KernelIdeal.Launch
import proofs.«407318_j78761110274299_1_alg».proof.Proof.RefOps
import Idealize.ShloMosaic.Lib.StableHlo.Run
import Idealize.ShloMosaic.Lib.StableHlo.Predicate
import Idealize.ShloMosaic.Lib.ValueIdx
import Idealize.ShloMosaic.Lib.Affine

noncomputable section

namespace Cert.KernelIdeal.KV

open Idealize.ShloMosaic Idealize.ShloMosaic.TcCoe
open Cert.KernelIdeal.Gen

variable {F : FTy → Type} [FloatOps F]

def idxK (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def inRangeK (src : IVec S800000 32) : IVec S800000 1 :=
  Host.reduce IntOp.andi
    (andi (cmpi .sge (idxK src) (broadcastInDim S800000x1 ![] bcast_S_S800000x1 (constantI S_ 32 0#32)))
      (cmpi .sle (idxK src)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

def takeK (h : FVec F S50000x128 .f32) (src : IVec S800000 32) : FVec F S800000x128 .f32 :=
  select (broadcastInDim S800000x128 ![0] bcast_S800000_S800000x128_0 (inRangeK src))
    (Host.gather gather_S50000x128_S800000x1_S800000x128_1_0_n_n_0_1_1128 h (idxK src))
    (broadcastInDim S800000x128 ![] bcast_S_S800000x128 (constant S_ .f32 0x7FC00000#32))

theorem ofBuf_toBuf {σ : RefSig} {V : EltTy → Type} {T : BufTy} (x : StableHlo.TRef σ T) (v : T.Contents V) :
    x.ofBuf (x.toBuf v) = v := by
  obtain ⟨r, h, _, _⟩ := x
  subst h
  rfl

section Stretches

attribute [local irreducible] Host.reduce Host.gather

theorem hostOps1_key (U : Valuation τ sig (Elt F)) :
    StableHlo.after hostOps1 U (Proc.devRef .tc main_v6)
      = (StableHlo.TRef.of main_v6 : StableHlo.TRef sig ⟨S800000x128, .f32⟩).toBuf
          (takeK ((StableHlo.TRef.of main_v5 : StableHlo.TRef sig ⟨S50000x128, .f32⟩).ofBuf (U (Proc.devRef .tc main_v5)))
            ((StableHlo.TRef.of main_v1 : StableHlo.TRef sig ⟨S800000, .i32⟩).ofBuf (U (Proc.devRef .tc main_v1)))) := by
  after_results_simp
  simp only [ofBuf_toBuf]
  unfold takeK inRangeK idxK
  rfl

theorem hostOps1_take (U : Valuation τ sig (Elt F)) :
    (StableHlo.after hostOps1 U (Proc.devRef .tc main_v6) : FVec F S800000x128 .f32)
      = takeK (U (Proc.devRef .tc main_v5)) (U (Proc.devRef .tc main_v1)) := by
  have key := hostOps1_key U
  have esrc : (StableHlo.TRef.of main_v1 : StableHlo.TRef sig ⟨S800000, .i32⟩).ofBuf (U (Proc.devRef .tc main_v1))
      = U (Proc.devRef .tc main_v1) := rfl
  have etab : (StableHlo.TRef.of main_v5 : StableHlo.TRef sig ⟨S50000x128, .f32⟩).ofBuf (U (Proc.devRef .tc main_v5))
      = U (Proc.devRef .tc main_v5) := rfl
  rw [esrc, etab] at key
  exact key

theorem hostOps4_key (U : Valuation τ sig (Elt F)) :
    StableHlo.after hostOps4 U (Proc.devRef .tc main_v49)
      = (StableHlo.TRef.of main_v49 : StableHlo.TRef sig ⟨S800000x128, .f32⟩).toBuf
          (takeK ((StableHlo.TRef.of main_v48 : StableHlo.TRef sig ⟨S50000x128, .f32⟩).ofBuf (U (Proc.devRef .tc main_v48)))
            ((StableHlo.TRef.of main_v1 : StableHlo.TRef sig ⟨S800000, .i32⟩).ofBuf (U (Proc.devRef .tc main_v1)))) := by
  after_results_simp
  simp only [ofBuf_toBuf]
  unfold takeK inRangeK idxK
  rfl

theorem hostOps4_take (U : Valuation τ sig (Elt F)) :
    (StableHlo.after hostOps4 U (Proc.devRef .tc main_v49) : FVec F S800000x128 .f32)
      = takeK (U (Proc.devRef .tc main_v48)) (U (Proc.devRef .tc main_v1)) := by
  have key := hostOps4_key U
  have esrc : (StableHlo.TRef.of main_v1 : StableHlo.TRef sig ⟨S800000, .i32⟩).ofBuf (U (Proc.devRef .tc main_v1))
      = U (Proc.devRef .tc main_v1) := rfl
  have etab : (StableHlo.TRef.of main_v48 : StableHlo.TRef sig ⟨S50000x128, .f32⟩).ofBuf (U (Proc.devRef .tc main_v48))
      = U (Proc.devRef .tc main_v48) := rfl
  rw [esrc, etab] at key
  exact key

theorem hostOps7_key (U : Valuation τ sig (Elt F)) :
    StableHlo.after hostOps7 U (Proc.devRef .tc main_v92)
      = (StableHlo.TRef.of main_v92 : StableHlo.TRef sig ⟨S800000x128, .f32⟩).toBuf
          (takeK ((StableHlo.TRef.of main_v91 : StableHlo.TRef sig ⟨S50000x128, .f32⟩).ofBuf (U (Proc.devRef .tc main_v91)))
            ((StableHlo.TRef.of main_v1 : StableHlo.TRef sig ⟨S800000, .i32⟩).ofBuf (U (Proc.devRef .tc main_v1)))) := by
  after_results_simp
  simp only [ofBuf_toBuf]
  unfold takeK inRangeK idxK
  rfl

theorem hostOps7_take (U : Valuation τ sig (Elt F)) :
    (StableHlo.after hostOps7 U (Proc.devRef .tc main_v92) : FVec F S800000x128 .f32)
      = takeK (U (Proc.devRef .tc main_v91)) (U (Proc.devRef .tc main_v1)) := by
  have key := hostOps7_key U
  have esrc : (StableHlo.TRef.of main_v1 : StableHlo.TRef sig ⟨S800000, .i32⟩).ofBuf (U (Proc.devRef .tc main_v1))
      = U (Proc.devRef .tc main_v1) := rfl
  have etab : (StableHlo.TRef.of main_v91 : StableHlo.TRef sig ⟨S50000x128, .f32⟩).ofBuf (U (Proc.devRef .tc main_v91))
      = U (Proc.devRef .tc main_v91) := rfl
  rw [esrc, etab] at key
  exact key

end Stretches

theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a (List.mem_cons_self ..)]; rfl
    rw [List.foldl_cons, ha]
    exact foldl_andi_ones f l (fun n hn => h n (List.mem_cons_of_mem _ hn))

theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x _ (fun n _ => hx n)

theorem norm_word (w : BitVec 32) (h0 : 0 ≤ w.toInt) :
    Scalar.select (IntOp.cmpi .slt w 0#32) (IntOp.addi w 50000#32) w = w := by
  have e0 : (0#32 : BitVec 32).toInt = 0 := by decide
  have hc : ¬ IntOp.cmpi .slt w 0#32 = 1#1 := by
    rw [IntOp.cmpi_slt, e0]; omega
  rw [ValueIdx.eq_zero_of_ne_one hc, ValueIdx.select_zero]

theorem in_range_bit (w : BitVec 32) (h0 : 0 ≤ w.toInt) (h1 : w.toInt < 50000) :
    IntOp.andi (IntOp.cmpi .sge w 0#32) (IntOp.cmpi .sle w 49999#32) = 1#1 := by
  have e0 : (0#32 : BitVec 32).toInt = 0 := by decide
  have e1 : (49999#32 : BitVec 32).toInt = 49999 := by decide
  rw [IntOp.andi_eq_one, IntOp.cmpi_sge, IntOp.cmpi_sle, e0, e1]
  exact ⟨h0, by omega⟩

theorem idxK_apply (src : IVec S800000 32) (i : S800000x1.Idx) :
    ∃ k : S800000.Idx,
      idxK src i = Scalar.select (IntOp.cmpi .slt (src k) 0#32) (IntOp.addi (src k) 50000#32) (src k) :=
  ⟨_, rfl⟩

theorem inRangeK_one (src : IVec S800000 32)
    (hr : ∀ e : Fin 800000, 0 ≤ (src (ValueIdx.ix1 e)).toInt ∧ (src (ValueIdx.ix1 e)).toInt < 50000)
    (r : S800000.Idx) : inRangeK src r = 1#1 := by
  unfold inRangeK
  refine reduce_andi_ones _ _ _ _ (fun i => ?_) rfl r
  obtain ⟨k, hk⟩ := idxK_apply src i
  obtain ⟨e, rfl⟩ : ∃ e : Fin 800000, k = ValueIdx.ix1 e := ⟨k 0, ValueIdx.eq_ix1 k⟩
  show IntOp.andi (IntOp.cmpi .sge (idxK src i) 0#32) (IntOp.cmpi .sle (idxK src i) 49999#32) = 1#1
  rw [hk, norm_word _ (hr e).1]
  exact in_range_bit _ (hr e).1 (hr e).2

theorem bcast_ones {s t : Shape} (dims : Fin s.rank → Fin t.rank) (hb : s.BroadcastsInDim t dims) (x : s.Idx → BitVec 1)
    (hx : ∀ r, x r = 1#1) (j : t.Idx) : broadcastInDim t dims hb x j = 1#1 := hx _

theorem gather_eq :
    Cert.KernelIdeal.gather_S50000x128_S800000x1_S800000x128_1_0_n_n_0_1_1128
      = Cert.ReferenceIdeal.gather_S50000x128_S800000x1_S800000x128_1_0_n_n_0_1_1128 := rfl

theorem idxK_eq (src : IVec S800000 32) : idxK src = Cert.RefOps.srcIdx src := rfl

/-- With every source index in [0, 50000) both bound tests hold and the guarded gather is the plain one. -/
theorem takeK_eq (h : FVec Ideal S50000x128 .f32) (src : IVec S800000 32)
    (hr : ∀ e : Fin 800000, 0 ≤ (src (ValueIdx.ix1 e)).toInt ∧ (src (ValueIdx.ix1 e)).toInt < 50000) :
    takeK (F := Ideal) h src = Cert.RefOps.take (F := Ideal) h src := by
  funext j
  unfold takeK
  rw [ValueIdx.select_apply, bcast_ones _ _ (inRangeK src) (inRangeK_one src hr) j, ValueIdx.select_one, gather_eq, idxK_eq]
  rfl

end Cert.KernelIdeal.KV

end
-- ==== Proof.KLayout.lean ====
import proofs.«407318_j78761110274299_1_alg».proof.Proof.Spec
import Idealize.ShloMosaic.Lib.ValueLayout
import Idealize.ShloMosaic.Lib.Pipeline.Value

noncomputable section

namespace Cert.Spec

open Idealize.ShloMosaic Idealize.ShloMosaic.ValueIdx

theorem shapeCast_row {n : ℕ} (v : Row n) (h : (⟨1, ![n]⟩ : Shape).ShapeCasts ⟨2, ![1, n]⟩) :
    shapeCast (⟨2, ![1, n]⟩ : Shape) v h = toRow1 v := by
  funext j
  rw [eq_ix2 j]
  exact shapeCast_a_1a_apply v h (j 0) (j 1)

theorem shapeCast_scalar (e : FVec Ideal (⟨0, ![]⟩ : Shape) .f32) (h : (⟨0, ![]⟩ : Shape).ShapeCasts ⟨2, ![1, 1]⟩) :
    shapeCast (⟨2, ![1, 1]⟩ : Shape) e h = toMat11 e := by
  funext j
  unfold shapeCast toMat11
  exact congrArg e (funext fun a => a.elim0)

end Cert.Spec

end
-- ==== Proof.KKeep.lean ====
import proofs.«407318_j78761110274299_1_alg».proof.Proof.Gen.KernelIdeal.Frame
import proofs.«407318_j78761110274299_1_alg».proof.Proof.RefOps
import proofs.«407318_j78761110274299_1_alg».proof.Proof.KLayout
import Idealize.ShloMosaic.Lib.StableHlo.Run

noncomputable section

namespace Cert.KernelIdeal.KV

open Cert.KernelIdeal Cert.KernelIdeal.Gen Idealize.ShloMosaic Idealize.ShloMosaic.TcCoe Idealize.SL.Sem

/-- A reference whose index lies below every index a line of operations writes keeps its contents across the line. -/
theorem after_of_lt {r : Ref sig .tc} (n : ℕ) (ops : List (HloOp τ sig (Elt Ideal))) (V : Valuation τ sig (Elt Ideal))
    (hW : ops.Forall fun op => ∀ x ∈ op.writes, ∃ y : Ref sig .tc, x = Proc.devRef .tc y ∧ n ≤ y.idx.val)
    (hr : r.idx.val < n) : StableHlo.after ops V (Proc.devRef .tc r) = V (Proc.devRef .tc r) :=
  StableHlo.after_of_forall_not_mem ops V fun op hop hb => by
    obtain ⟨y, he, hy⟩ := List.forall_iff_forall_mem.mp hW op hop _ hb
    rw [Proc.devRef_injective _ he] at hr
    omega

-- Each operation of a stretch writes one reference, of index at least the bound.
macro "writes_ge " ops:ident : term =>
  `(by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton, forall_eq]
      repeat' apply And.intro
      all_goals exact ⟨_, rfl, by decide⟩)

variable {r : Ref sig .tc} (V : Valuation τ sig (Elt Ideal))

theorem keep0 (hr : r.idx.val < 17) : StableHlo.after hostOps0 V (Proc.devRef .tc r) = V (Proc.devRef .tc r) :=
  after_of_lt 17 _ V (writes_ge hostOps0) hr
theorem keep1 (hr : r.idx.val < 21) : StableHlo.after hostOps1 V (Proc.devRef .tc r) = V (Proc.devRef .tc r) :=
  after_of_lt 21 _ V (writes_ge hostOps1) hr
theorem keep1_1 (hr : r.idx.val < 21) : StableHlo.after hostOps1_1 V (Proc.devRef .tc r) = V (Proc.devRef .tc r) :=
  after_of_lt 21 _ V (writes_ge hostOps1_1) hr
theorem keep2 (hr : r.idx.val < 21) : StableHlo.after hostOps2 V (Proc.devRef .tc r) = V (Proc.devRef .tc r) :=
  after_of_lt 21 _ V (writes_ge hostOps2) hr
theorem keep3 (hr : r.idx.val < 21) : StableHlo.after hostOps3 V (Proc.devRef .tc r) = V (Proc.devRef .tc r) :=
  after_of_lt 21 _ V (writes_ge hostOps3) hr
theorem keep4 (hr : r.idx.val < 21) : StableHlo.after hostOps4 V (Proc.devRef .tc r) = V (Proc.devRef .tc r) :=
  after_of_lt 21 _ V (writes_ge hostOps4) hr
theorem keep4_1 (hr : r.idx.val < 21) : StableHlo.after hostOps4_1 V (Proc.devRef .tc r) = V (Proc.devRef .tc r) :=
  after_of_lt 21 _ V (writes_ge hostOps4_1) hr
theorem keep5 (hr : r.idx.val < 21) : StableHlo.after hostOps5 V (Proc.devRef .tc r) = V (Proc.devRef .tc r) :=
  after_of_lt 21 _ V (writes_ge hostOps5) hr
theorem keep6 (hr : r.idx.val < 21) : StableHlo.after hostOps6 V (Proc.devRef .tc r) = V (Proc.devRef .tc r) :=
  after_of_lt 21 _ V (writes_ge hostOps6) hr
theorem keep7 (hr : r.idx.val < 21) : StableHlo.after hostOps7 V (Proc.devRef .tc r) = V (Proc.devRef .tc r) :=
  after_of_lt 21 _ V (writes_ge hostOps7) hr
theorem keep7_1 (hr : r.idx.val < 21) : StableHlo.after hostOps7_1 V (Proc.devRef .tc r) = V (Proc.devRef .tc r) :=
  after_of_lt 21 _ V (writes_ge hostOps7_1) hr
theorem keep8 (hr : r.idx.val < 21) : StableHlo.after hostOps8 V (Proc.devRef .tc r) = V (Proc.devRef .tc r) :=
  after_of_lt 21 _ V (writes_ge hostOps8) hr
theorem keep9 (hr : r.idx.val < 21) : StableHlo.after hostOps9 V (Proc.devRef .tc r) = V (Proc.devRef .tc r) :=
  after_of_lt 21 _ V (writes_ge hostOps9) hr
theorem keep10 (hr : r.idx.val < 21) : StableHlo.after hostOps10 V (Proc.devRef .tc r) = V (Proc.devRef .tc r) :=
  after_of_lt 21 _ V (writes_ge hostOps10) hr

variable (m : (ℓ : Loc nD τ sig) → Buf (Elt Ideal) ℓ) (ρ : Dev nD → PrngReg) (c : Dev nD)

/-- The buffers nothing writes after the first stretch: the two index vectors and the arguments read later. -/
noncomputable def kept : List (Ref sig .tc) :=
  [main_v1, main_v3, main_arg2, main_arg3, main_arg6, main_arg7, main_arg8, main_arg9, main_arg10, main_arg11, main_arg12,
   main_arg13, main_arg14, main_arg15, main_arg16]

theorem kept_lt : ∀ b ∈ kept, b.idx.val < 21 := by decide

-- No array of a region is a kept buffer, but for the edge features, an input of the three message regions.
theorem ne0 : ∀ b ∈ kept, ∀ w, Pipeline.arrRef spec0 w ≠ b := by decide
theorem ne1 : ∀ b ∈ kept, b ≠ main_arg3 → ∀ w, Pipeline.arrRef spec1 w ≠ b := by decide
theorem ne2 : ∀ b ∈ kept, ∀ w, Pipeline.arrRef spec2 w ≠ b := by decide
theorem ne3 : ∀ b ∈ kept, ∀ w, Pipeline.arrRef spec3 w ≠ b := by decide
theorem ne4 : ∀ b ∈ kept, b ≠ main_arg3 → ∀ w, Pipeline.arrRef spec4 w ≠ b := by decide
theorem ne5 : ∀ b ∈ kept, ∀ w, Pipeline.arrRef spec5 w ≠ b := by decide
theorem ne6 : ∀ b ∈ kept, ∀ w, Pipeline.arrRef spec6 w ≠ b := by decide
theorem ne7 : ∀ b ∈ kept, b ≠ main_arg3 → ∀ w, Pipeline.arrRef spec7 w ≠ b := by decide
theorem ne8 : ∀ b ∈ kept, ∀ w, Pipeline.arrRef spec8 w ≠ b := by decide
theorem ne9 : ∀ b ∈ kept, ∀ w, Pipeline.arrRef spec9 w ≠ b := by decide

variable {b : Ref sig .tc} (hb : b ∈ kept)
include hb

-- No segment between the first boundary and a later one writes a kept buffer: there it holds what it held at the first.
theorem k2 : W2 m ρ c (Proc.devRef .tc b) = W1 m ρ c (Proc.devRef .tc b) := W2_of_ne m ρ c b (ne0 b hb)
theorem k3 : W3 m ρ c (Proc.devRef .tc b) = W1 m ρ c (Proc.devRef .tc b) :=
  Eq.trans (keep1 _ (kept_lt b hb)) (k2 m ρ c hb)
theorem k4 : W4 m ρ c (Proc.devRef .tc b) = W1 m ρ c (Proc.devRef .tc b) :=
  Eq.trans (keep1_1 _ (kept_lt b hb)) (k3 m ρ c hb)
theorem k5 : W5 m ρ c (Proc.devRef .tc b) = W1 m ρ c (Proc.devRef .tc b) :=
  Eq.trans (by
    by_cases h : b = main_arg3
    · subst h; exact (W5_arr m ρ c 0).trans (((dat1 (V4 m ρ) c).arrAt_in 0 rfl _).trans (A_eq1 (V4 m ρ) c 0))
    · exact W5_of_ne m ρ c b (ne1 b hb h)) (k4 m ρ c hb)
theorem k6 : W6 m ρ c (Proc.devRef .tc b) = W1 m ρ c (Proc.devRef .tc b) :=
  Eq.trans (keep2 _ (kept_lt b hb)) (k5 m ρ c hb)
theorem k7 : W7 m ρ c (Proc.devRef .tc b) = W1 m ρ c (Proc.devRef .tc b) :=
  Eq.trans (W7_of_ne m ρ c b (ne2 b hb)) (k6 m ρ c hb)
theorem k8 : W8 m ρ c (Proc.devRef .tc b) = W1 m ρ c (Proc.devRef .tc b) :=
  Eq.trans (keep3 _ (kept_lt b hb)) (k7 m ρ c hb)
theorem k9 : W9 m ρ c (Proc.devRef .tc b) = W1 m ρ c (Proc.devRef .tc b) :=
  Eq.trans (W9_of_ne m ρ c b (ne3 b hb)) (k8 m ρ c hb)
theorem k10 : W10 m ρ c (Proc.devRef .tc b) = W1 m ρ c (Proc.devRef .tc b) :=
  Eq.trans (keep4 _ (kept_lt b hb)) (k9 m ρ c hb)
theorem k11 : W11 m ρ c (Proc.devRef .tc b) = W1 m ρ c (Proc.devRef .tc b) :=
  Eq.trans (keep4_1 _ (kept_lt b hb)) (k10 m ρ c hb)
theorem k12 : W12 m ρ c (Proc.devRef .tc b) = W1 m ρ c (Proc.devRef .tc b) :=
  Eq.trans (by
    by_cases h : b = main_arg3
    · subst h; exact (W12_arr m ρ c 0).trans (((dat4 (V11 m ρ) c).arrAt_in 0 rfl _).trans (A_eq4 (V11 m ρ) c 0))
    · exact W12_of_ne m ρ c b (ne4 b hb h)) (k11 m ρ c hb)
theorem k13 : W13 m ρ c (Proc.devRef .tc b) = W1 m ρ c (Proc.devRef .tc b) :=
  Eq.trans (keep5 _ (kept_lt b hb)) (k12 m ρ c hb)
theorem k14 : W14 m ρ c (Proc.devRef .tc b) = W1 m ρ c (Proc.devRef .tc b) :=
  Eq.trans (W14_of_ne m ρ c b (ne5 b hb)) (k13 m ρ c hb)
theorem k15 : W15 m ρ c (Proc.devRef .tc b) = W1 m ρ c (Proc.devRef .tc b) :=
  Eq.trans (keep6 _ (kept_lt b hb)) (k14 m ρ c hb)
theorem k16 : W16 m ρ c (Proc.devRef .tc b) = W1 m ρ c (Proc.devRef .tc b) :=
  Eq.trans (W16_of_ne m ρ c b (ne6 b hb)) (k15 m ρ c hb)
theorem k17 : W17 m ρ c (Proc.devRef .tc b) = W1 m ρ c (Proc.devRef .tc b) :=
  Eq.trans (keep7 _ (kept_lt b hb)) (k16 m ρ c hb)
theorem k18 : W18 m ρ c (Proc.devRef .tc b) = W1 m ρ c (Proc.devRef .tc b) :=
  Eq.trans (keep7_1 _ (kept_lt b hb)) (k17 m ρ c hb)
theorem k19 : W19 m ρ c (Proc.devRef .tc b) = W1 m ρ c (Proc.devRef .tc b) :=
  Eq.trans (by
    by_cases h : b = main_arg3
    · subst h; exact (W19_arr m ρ c 0).trans (((dat7 (V18 m ρ) c).arrAt_in 0 rfl _).trans (A_eq7 (V18 m ρ) c 0))
    · exact W19_of_ne m ρ c b (ne7 b hb h)) (k18 m ρ c hb)
theorem k20 : W20 m ρ c (Proc.devRef .tc b) = W1 m ρ c (Proc.devRef .tc b) :=
  Eq.trans (keep8 _ (kept_lt b hb)) (k19 m ρ c hb)
theorem k21 : W21 m ρ c (Proc.devRef .tc b) = W1 m ρ c (Proc.devRef .tc b) :=
  Eq.trans (W21_of_ne m ρ c b (ne8 b hb)) (k20 m ρ c hb)
theorem k22 : W22 m ρ c (Proc.devRef .tc b) = W1 m ρ c (Proc.devRef .tc b) :=
  Eq.trans (keep9 _ (kept_lt b hb)) (k21 m ρ c hb)
theorem k23 : W23 m ρ c (Proc.devRef .tc b) = W1 m ρ c (Proc.devRef .tc b) :=
  Eq.trans (W23_of_ne m ρ c b (ne9 b hb)) (k22 m ρ c hb)
theorem k24 : W24 m ρ c (Proc.devRef .tc b) = W1 m ρ c (Proc.devRef .tc b) :=
  Eq.trans (keep10 _ (kept_lt b hb)) (k23 m ρ c hb)

omit hb

/-- The first stretch writes none of these arguments: at the first boundary each is as launched. -/
theorem W1_arg (a : Ref sig .tc) (ha : a ∈ [main_arg0, main_arg2, main_arg3, main_arg4, main_arg6, main_arg7, main_arg8, main_arg9, main_arg10, main_arg11, main_arg12, main_arg13, main_arg14, main_arg15, main_arg16]) :
    W1 m ρ c (Proc.devRef .tc a) = m ((c.tc : Thread nD τ).loc a) := by
  have : a.idx.val < 17 := by
    simp only [List.mem_cons, List.mem_singleton, List.not_mem_nil, or_false] at ha
    rcases ha with e | e | e | e | e | e | e | e | e | e | e | e | e | e | e <;> subst e <;> decide
  exact (keep0 (W0 m ρ c) this).trans rfl

theorem W1_arg0 : W1 m ρ c (Proc.devRef .tc main_arg0) = m ((c.tc : Thread nD τ).loc main_arg0) := W1_arg m ρ c _ (by decide)
theorem W1_arg4 : W1 m ρ c (Proc.devRef .tc main_arg4) = m ((c.tc : Thread nD τ).loc main_arg4) := W1_arg m ρ c _ (by decide)

/-- The first stretch slices the two rows out of the edge list and lays the bias out as a row. -/
theorem W1_src : W1 m ρ c (Proc.devRef .tc main_v1) = Cert.RefOps.srcOf (m ((c.tc : Thread nD τ).loc main_arg1)) := by
  show StableHlo.after hostOps0 _ (Proc.devRef .tc main_v1) = _
  after_results
  rfl

theorem W1_dst : W1 m ρ c (Proc.devRef .tc main_v3) = Cert.RefOps.dstOf (m ((c.tc : Thread nD τ).loc main_arg1)) := by
  show StableHlo.after hostOps0 _ (Proc.devRef .tc main_v3) = _
  after_results
  rfl

theorem W1_bias : W1 m ρ c (Proc.devRef .tc main_v4) = Cert.Spec.toRow1 (m ((c.tc : Thread nD τ).loc main_arg5)) := by
  show StableHlo.after hostOps0 _ (Proc.devRef .tc main_v4) = _
  after_results
  exact Cert.Spec.shapeCast_row _ _

theorem W2_src : W2 m ρ c (Proc.devRef .tc main_v1) = Cert.RefOps.srcOf (m ((c.tc : Thread nD τ).loc main_arg1)) :=
  (k2 m ρ c (b := main_v1) (by decide)).trans (W1_src m ρ c)
theorem W9_src : W9 m ρ c (Proc.devRef .tc main_v1) = Cert.RefOps.srcOf (m ((c.tc : Thread nD τ).loc main_arg1)) :=
  (k9 m ρ c (b := main_v1) (by decide)).trans (W1_src m ρ c)
theorem W16_src : W16 m ρ c (Proc.devRef .tc main_v1) = Cert.RefOps.srcOf (m ((c.tc : Thread nD τ).loc main_arg1)) :=
  (k16 m ρ c (b := main_v1) (by decide)).trans (W1_src m ρ c)
theorem W5_dst : W5 m ρ c (Proc.devRef .tc main_v3) = Cert.RefOps.dstOf (m ((c.tc : Thread nD τ).loc main_arg1)) :=
  (k5 m ρ c (b := main_v3) (by decide)).trans (W1_dst m ρ c)
theorem W12_dst : W12 m ρ c (Proc.devRef .tc main_v3) = Cert.RefOps.dstOf (m ((c.tc : Thread nD τ).loc main_arg1)) :=
  (k12 m ρ c (b := main_v3) (by decide)).trans (W1_dst m ρ c)
theorem W19_dst : W19 m ρ c (Proc.devRef .tc main_v3) = Cert.RefOps.dstOf (m ((c.tc : Thread nD τ).loc main_arg1)) :=
  (k19 m ρ c (b := main_v3) (by decide)).trans (W1_dst m ρ c)
theorem W3_arg6 : W3 m ρ c (Proc.devRef .tc main_arg6) = m ((c.tc : Thread nD τ).loc main_arg6) :=
  (k3 m ρ c (b := main_arg6) (by decide)).trans (W1_arg m ρ c _ (by decide))
theorem W3_arg7 : W3 m ρ c (Proc.devRef .tc main_arg7) = m ((c.tc : Thread nD τ).loc main_arg7) :=
  (k3 m ρ c (b := main_arg7) (by decide)).trans (W1_arg m ρ c _ (by decide))
theorem W10_arg6 : W10 m ρ c (Proc.devRef .tc main_arg6) = m ((c.tc : Thread nD τ).loc main_arg6) :=
  (k10 m ρ c (b := main_arg6) (by decide)).trans (W1_arg m ρ c _ (by decide))
theorem W10_arg7 : W10 m ρ c (Proc.devRef .tc main_arg7) = m ((c.tc : Thread nD τ).loc main_arg7) :=
  (k10 m ρ c (b := main_arg7) (by decide)).trans (W1_arg m ρ c _ (by decide))
theorem W17_arg6 : W17 m ρ c (Proc.devRef .tc main_arg6) = m ((c.tc : Thread nD τ).loc main_arg6) :=
  (k17 m ρ c (b := main_arg6) (by decide)).trans (W1_arg m ρ c _ (by decide))
theorem W17_arg7 : W17 m ρ c (Proc.devRef .tc main_arg7) = m ((c.tc : Thread nD τ).loc main_arg7) :=
  (k17 m ρ c (b := main_arg7) (by decide)).trans (W1_arg m ρ c _ (by decide))
theorem W4_arg3 : W4 m ρ c (Proc.devRef .tc main_arg3) = m ((c.tc : Thread nD τ).loc main_arg3) :=
  (k4 m ρ c (b := main_arg3) (by decide)).trans (W1_arg m ρ c _ (by decide))
theorem W11_arg3 : W11 m ρ c (Proc.devRef .tc main_arg3) = m ((c.tc : Thread nD τ).loc main_arg3) :=
  (k11 m ρ c (b := main_arg3) (by decide)).trans (W1_arg m ρ c _ (by decide))
theorem W18_arg3 : W18 m ρ c (Proc.devRef .tc main_arg3) = m ((c.tc : Thread nD τ).loc main_arg3) :=
  (k18 m ρ c (b := main_arg3) (by decide)).trans (W1_arg m ρ c _ (by decide))
theorem W5_arg8 : W5 m ρ c (Proc.devRef .tc main_arg8) = m ((c.tc : Thread nD τ).loc main_arg8) :=
  (k5 m ρ c (b := main_arg8) (by decide)).trans (W1_arg m ρ c _ (by decide))
theorem W5_arg9 : W5 m ρ c (Proc.devRef .tc main_arg9) = m ((c.tc : Thread nD τ).loc main_arg9) :=
  (k5 m ρ c (b := main_arg9) (by decide)).trans (W1_arg m ρ c _ (by decide))
theorem W5_arg10 : W5 m ρ c (Proc.devRef .tc main_arg10) = m ((c.tc : Thread nD τ).loc main_arg10) :=
  (k5 m ρ c (b := main_arg10) (by decide)).trans (W1_arg m ρ c _ (by decide))
theorem W5_arg11 : W5 m ρ c (Proc.devRef .tc main_arg11) = m ((c.tc : Thread nD τ).loc main_arg11) :=
  (k5 m ρ c (b := main_arg11) (by decide)).trans (W1_arg m ρ c _ (by decide))
theorem W5_arg12 : W5 m ρ c (Proc.devRef .tc main_arg12) = m ((c.tc : Thread nD τ).loc main_arg12) :=
  (k5 m ρ c (b := main_arg12) (by decide)).trans (W1_arg m ρ c _ (by decide))
theorem W12_arg8 : W12 m ρ c (Proc.devRef .tc main_arg8) = m ((c.tc : Thread nD τ).loc main_arg8) :=
  (k12 m ρ c (b := main_arg8) (by decide)).trans (W1_arg m ρ c _ (by decide))
theorem W12_arg9 : W12 m ρ c (Proc.devRef .tc main_arg9) = m ((c.tc : Thread nD τ).loc main_arg9) :=
  (k12 m ρ c (b := main_arg9) (by decide)).trans (W1_arg m ρ c _ (by decide))
theorem W12_arg10 : W12 m ρ c (Proc.devRef .tc main_arg10) = m ((c.tc : Thread nD τ).loc main_arg10) :=
  (k12 m ρ c (b := main_arg10) (by decide)).trans (W1_arg m ρ c _ (by decide))
theorem W12_arg11 : W12 m ρ c (Proc.devRef .tc main_arg11) = m ((c.tc : Thread nD τ).loc main_arg11) :=
  (k12 m ρ c (b := main_arg11) (by decide)).trans (W1_arg m ρ c _ (by decide))
theorem W12_arg12 : W12 m ρ c (Proc.devRef .tc main_arg12) = m ((c.tc : Thread nD τ).loc main_arg12) :=
  (k12 m ρ c (b := main_arg12) (by decide)).trans (W1_arg m ρ c _ (by decide))
theorem W19_arg8 : W19 m ρ c (Proc.devRef .tc main_arg8) = m ((c.tc : Thread nD τ).loc main_arg8) :=
  (k19 m ρ c (b := main_arg8) (by decide)).trans (W1_arg m ρ c _ (by decide))
theorem W19_arg9 : W19 m ρ c (Proc.devRef .tc main_arg9) = m ((c.tc : Thread nD τ).loc main_arg9) :=
  (k19 m ρ c (b := main_arg9) (by decide)).trans (W1_arg m ρ c _ (by decide))
theorem W19_arg10 : W19 m ρ c (Proc.devRef .tc main_arg10) = m ((c.tc : Thread nD τ).loc main_arg10) :=
  (k19 m ρ c (b := main_arg10) (by decide)).trans (W1_arg m ρ c _ (by decide))
theorem W19_arg11 : W19 m ρ c (Proc.devRef .tc main_arg11) = m ((c.tc : Thread nD τ).loc main_arg11) :=
  (k19 m ρ c (b := main_arg11) (by decide)).trans (W1_arg m ρ c _ (by decide))
theorem W19_arg12 : W19 m ρ c (Proc.devRef .tc main_arg12) = m ((c.tc : Thread nD τ).loc main_arg12) :=
  (k19 m ρ c (b := main_arg12) (by decide)).trans (W1_arg m ρ c _ (by decide))
theorem W7_arg13 : W7 m ρ c (Proc.devRef .tc main_arg13) = m ((c.tc : Thread nD τ).loc main_arg13) :=
  (k7 m ρ c (b := main_arg13) (by decide)).trans (W1_arg m ρ c _ (by decide))
theorem W7_arg14 : W7 m ρ c (Proc.devRef .tc main_arg14) = m ((c.tc : Thread nD τ).loc main_arg14) :=
  (k7 m ρ c (b := main_arg14) (by decide)).trans (W1_arg m ρ c _ (by decide))
theorem W14_arg13 : W14 m ρ c (Proc.devRef .tc main_arg13) = m ((c.tc : Thread nD τ).loc main_arg13) :=
  (k14 m ρ c (b := main_arg13) (by decide)).trans (W1_arg m ρ c _ (by decide))
theorem W14_arg14 : W14 m ρ c (Proc.devRef .tc main_arg14) = m ((c.tc : Thread nD τ).loc main_arg14) :=
  (k14 m ρ c (b := main_arg14) (by decide)).trans (W1_arg m ρ c _ (by decide))
theorem W21_arg13 : W21 m ρ c (Proc.devRef .tc main_arg13) = m ((c.tc : Thread nD τ).loc main_arg13) :=
  (k21 m ρ c (b := main_arg13) (by decide)).trans (W1_arg m ρ c _ (by decide))
theorem W21_arg14 : W21 m ρ c (Proc.devRef .tc main_arg14) = m ((c.tc : Thread nD τ).loc main_arg14) :=
  (k21 m ρ c (b := main_arg14) (by decide)).trans (W1_arg m ρ c _ (by decide))
theorem W23_arg2 : W23 m ρ c (Proc.devRef .tc main_arg2) = m ((c.tc : Thread nD τ).loc main_arg2) :=
  (k23 m ρ c (b := main_arg2) (by decide)).trans (W1_arg m ρ c _ (by decide))
theorem W23_arg16 : W23 m ρ c (Proc.devRef .tc main_arg16) = m ((c.tc : Thread nD τ).loc main_arg16) :=
  (k23 m ρ c (b := main_arg16) (by decide)).trans (W1_arg m ρ c _ (by decide))
theorem W24_arg15 : W24 m ρ c (Proc.devRef .tc main_arg15) = m ((c.tc : Thread nD τ).loc main_arg15) :=
  (k24 m ρ c (b := main_arg15) (by decide)).trans (W1_arg m ρ c _ (by decide))

end Cert.KernelIdeal.KV

end
-- ==== Proof.KParts.lean ====
import proofs.«407318_j78761110274299_1_alg».proof.Proof.KLin
import proofs.«407318_j78761110274299_1_alg».proof.Proof.KFin
import proofs.«407318_j78761110274299_1_alg».proof.Proof.KMsg1
import proofs.«407318_j78761110274299_1_alg».proof.Proof.KMsg4
import proofs.«407318_j78761110274299_1_alg».proof.Proof.KMsg7
import proofs.«407318_j78761110274299_1_alg».proof.Proof.KMlp2
import proofs.«407318_j78761110274299_1_alg».proof.Proof.KMlp5
import proofs.«407318_j78761110274299_1_alg».proof.Proof.KMlp8
import proofs.«407318_j78761110274299_1_alg».proof.Proof.KBn3
import proofs.«407318_j78761110274299_1_alg».proof.Proof.KBn6
import proofs.«407318_j78761110274299_1_alg».proof.Proof.KBn9
import proofs.«407318_j78761110274299_1_alg».proof.Proof.KTake
import proofs.«407318_j78761110274299_1_alg».proof.Proof.KKeep
-- ==== Proof.RSpecA.lean ====
import proofs.«407318_j78761110274299_1_alg».proof.Proof.RefOps
import proofs.«407318_j78761110274299_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«407318_j78761110274299_1_alg».proof.Proof.Contraction

noncomputable section

namespace Cert.RefOps

open Cert.ReferenceIdeal Cert.ReferenceIdeal.Gen Idealize.ShloMosaic Idealize.ShloMosaic.TcCoe Idealize.ShloMosaic.ValueIdx

theorem dot_lin_apply (x : FVec Ideal S50000x64 .f32) (w : FVec Ideal S64x128 .f32) (r : Fin 50000) (j : Fin 128) :
    Host.dotGeneral (F := Ideal) dot_S50000x64_S64x128_S50000x128_1_0_0_1_n_n none x w (ix2 r j) = ∑ k : Fin 64, x (ix2 r k) * w (ix2 k j) :=
  Cert.Spec.dotGeneral_plain _ rfl x w r j

theorem dot_msg_apply (x : FVec Ideal S800000x16 .f32) (w : FVec Ideal S16x128 .f32) (r : Fin 800000) (j : Fin 128) :
    Host.dotGeneral (F := Ideal) dot_S800000x16_S16x128_S800000x128_1_0_0_1_n_n none x w (ix2 r j) = ∑ k : Fin 16, x (ix2 r k) * w (ix2 k j) :=
  Cert.Spec.dotGeneral_plain _ rfl x w r j

theorem dot_fin_apply (x : FVec Ideal S128x128 .f32) (w : FVec Ideal S128x16 .f32) (r : Fin 128) (j : Fin 16) :
    Host.dotGeneral (F := Ideal) dot_S128x128_S128x16_S128x16_1_0_0_1_n_n none x w (ix2 r j) = ∑ k : Fin 128, x (ix2 r k) * w (ix2 k j) :=
  Cert.Spec.dotGeneral_plain _ rfl x w r j

theorem rowsN50000x128_apply {F : FTy → Type} (v : FVec F S128 .f32) (r : Fin 50000) (j : Fin 128) :
    broadcastInDim S50000x128 ![0, 1] bcast_S1x128_S50000x128_0_1 (broadcastInDim S1x128 ![1] bcast_S128_S1x128_1 v) (ix2 r j) = v (ix1 j) := by
  refine (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 v (ix2 (0 : Fin 1) j) (ix1 j) (fun a => match a with
    | ⟨0, _⟩ => by show j.val = if (128 : Nat) = 1 then 0 else j.val; rw [if_neg (by decide)])

theorem rowsN800000x128_apply {F : FTy → Type} (v : FVec F S128 .f32) (r : Fin 800000) (j : Fin 128) :
    broadcastInDim S800000x128 ![0, 1] bcast_S1x128_S800000x128_0_1 (broadcastInDim S1x128 ![1] bcast_S128_S1x128_1 v) (ix2 r j) = v (ix1 j) := by
  refine (broadcastInDim_apply _ bcast_S1x128_S800000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 v (ix2 (0 : Fin 1) j) (ix1 j) (fun a => match a with
    | ⟨0, _⟩ => by show j.val = if (128 : Nat) = 1 then 0 else j.val; rw [if_neg (by decide)])

theorem rowsN128x16_apply {F : FTy → Type} (v : FVec F S16 .f32) (r : Fin 128) (j : Fin 16) :
    broadcastInDim S128x16 ![0, 1] bcast_S1x16_S128x16_0_1 (broadcastInDim S1x16 ![1] bcast_S16_S1x16_1 v) (ix2 r j) = v (ix1 j) := by
  refine (broadcastInDim_apply _ bcast_S1x16_S128x16_0_1 _ (ix2 r j) (ix2 (0 : Fin 1) j) (fun a => match a with
    | ⟨0, _⟩ => by show 0 = if (1 : Nat) = 1 then 0 else r.val; rw [if_pos rfl]
    | ⟨1, _⟩ => by show j.val = if (16 : Nat) = 1 then 0 else j.val; rw [if_neg (by decide)])).trans ?_
  exact broadcastInDim_apply _ bcast_S16_S1x16_1 v (ix2 (0 : Fin 1) j) (ix1 j) (fun a => match a with
    | ⟨0, _⟩ => by show j.val = if (16 : Nat) = 1 then 0 else j.val; rw [if_neg (by decide)])

theorem rows128_apply {F : FTy → Type} (v : FVec F S128 .f32) (r : Fin 50000) (j : Fin 128) :
    rows128 v (ix2 r j) = v (ix1 j) := by
  unfold rows128
  exact rowsN50000x128_apply v r j

theorem zeros800000x128_apply (e : Fin 800000) (j : Fin 128) :
    broadcastInDim S800000x128 ![] bcast_S_S800000x128 (constant (F := Ideal) S_ .f32 0x00000000#32) (ix2 e j)
      = Ideal.ofBits .f32 0x00000000#32 :=
  broadcastInDim_apply _ bcast_S_S800000x128 (constant (F := Ideal) S_ .f32 0x00000000#32) (ix2 e j) ix0 (fun a => a.elim0)

theorem lin_eq (x : FVec Ideal S50000x64 .f32) (w : FVec Ideal S64x128 .f32) (b : FVec Ideal S128 .f32) :
    lin (F := Ideal) x w b = Spec.linR x w (Spec.toRow1 b) := by
  funext i
  obtain ⟨r, j, rfl⟩ : ∃ (r : Fin 50000) (j : Fin 128), i = ix2 r j := ⟨i 0, i 1, eq_ix2 i⟩
  rw [Spec.linR_ix2]
  unfold lin Spec.linE
  rw [addf_apply, dot_lin_apply, rows128_apply, Spec.toRow1_ix2]

/-- The message adds the gathered row first; addition commutes. -/
theorem msg_eq (ea : FVec Ideal S800000x16 .f32) (hs : FVec Ideal S800000x128 .f32) (w : FVec Ideal S16x128 .f32)
    (b : FVec Ideal S128 .f32) : msg (F := Ideal) ea hs w b = Spec.msgR ea hs w (Spec.toRow1 b) := by
  funext i
  obtain ⟨e, j, rfl⟩ : ∃ (e : Fin 800000) (j : Fin 128), i = ix2 e j := ⟨i 0, i 1, eq_ix2 i⟩
  rw [Spec.msgR_ix2]
  unfold msg Spec.msgE
  rw [maximumf_apply, addf_apply, addf_apply, dot_msg_apply, rowsN800000x128_apply, zeros800000x128_apply,
    Spec.toRow1_ix2, add_comm (hs (ix2 e j))]

theorem fin_eq (p : FVec Ideal S128x128 .f32) (w : FVec Ideal S128x16 .f32) (b : FVec Ideal S16 .f32) :
    fin (F := Ideal) p w b = Spec.finR p w (Spec.toRow1 b) := by
  funext i
  obtain ⟨r, j, rfl⟩ : ∃ (r : Fin 128) (j : Fin 16), i = ix2 r j := ⟨i 0, i 1, eq_ix2 i⟩
  rw [Spec.finR_ix2]
  unfold fin Spec.finE
  rw [addf_apply, dot_fin_apply, rowsN128x16_apply, Spec.toRow1_ix2]

end Cert.RefOps

end
-- ==== Proof.KEnds.lean ====
import proofs.«407318_j78761110274299_1_alg».proof.Proof.Gen.KernelIdeal.Frame
import proofs.«407318_j78761110274299_1_alg».proof.Proof.KParts
import proofs.«407318_j78761110274299_1_alg».proof.Proof.KLayout
import proofs.«407318_j78761110274299_1_alg».proof.Proof.RSpecA
import Idealize.ShloMosaic.Lib.StableHlo.Run

noncomputable section

namespace Cert.KernelIdeal.KV

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem lin_chain :
    W2 m ρ c (Proc.devRef .tc main_v5)
      = Cert.RefOps.lin (F := Ideal) (m ((c.tc : Thread nD τ).loc main_arg0)) (m ((c.tc : Thread nD τ).loc main_arg4))
          (m ((c.tc : Thread nD τ).loc main_arg5)) := by
  rw [lin_W2, W1_arg0, W1_arg4, W1_bias]
  exact (Cert.RefOps.lin_eq _ _ _).symm

theorem hostOps10_pool {F : FTy → Type} [FloatOps F] (U : Valuation τ sig (Elt F)) :
    StableHlo.after hostOps10 U (Proc.devRef .tc main_v146)
      = Cert.RefOps.pool (U (Proc.devRef .tc main_arg2)) (U (Proc.devRef .tc main_v134)) := by
  show StableHlo.after hostOps10 U (Proc.devRef .tc main_v146) = _
  after_results_simp
  rfl

theorem hostOps10_bias {F : FTy → Type} [FloatOps F] (U : Valuation τ sig (Elt F)) :
    StableHlo.after hostOps10 U (Proc.devRef .tc main_v147)
      = shapeCast S1x16 (U (Proc.devRef .tc main_arg16)) shapeCasts_S16_S1x16 := by
  show StableHlo.after hostOps10 U (Proc.devRef .tc main_v147) = _
  after_results
  rfl

theorem W24_pool :
    W24 m ρ c (Proc.devRef .tc main_v146)
      = Cert.RefOps.pool (F := Ideal) (m ((c.tc : Thread nD τ).loc main_arg2)) (W23 m ρ c (Proc.devRef .tc main_v134)) := by
  refine (hostOps10_pool (W23 m ρ c)).trans ?_
  rw [W23_arg2]

theorem W24_bias :
    W24 m ρ c (Proc.devRef .tc main_v147) = Cert.Spec.toRow1 (m ((c.tc : Thread nD τ).loc main_arg16)) := by
  refine (hostOps10_bias (W23 m ρ c)).trans ?_
  rw [W23_arg16]
  exact Cert.Spec.shapeCast_row _ _

theorem fin_chain :
    W25 m ρ c (Proc.devRef .tc main_v148)
      = Cert.RefOps.fin (F := Ideal)
          (Cert.RefOps.pool (F := Ideal) (m ((c.tc : Thread nD τ).loc main_arg2)) (W23 m ρ c (Proc.devRef .tc main_v134)))
          (m ((c.tc : Thread nD τ).loc main_arg15)) (m ((c.tc : Thread nD τ).loc main_arg16)) := by
  rw [fin_W25, W24_arg15, W24_pool, W24_bias]
  exact (Cert.RefOps.fin_eq _ _ _).symm

end Cert.KernelIdeal.KV

end
-- ==== Proof.RSpecB.lean ====
import proofs.«407318_j78761110274299_1_alg».proof.Proof.RefOps
import proofs.«407318_j78761110274299_1_alg».proof.Proof.Spec
import Idealize.ShloMosaic.PureOps.Ideal.Laws
import Idealize.ShloMosaic.Lib.ValueIdx
import Idealize.ShloMosaic.Lib.Pipeline.Value
import proofs.«407318_j78761110274299_1_alg».proof.Proof.Contraction

noncomputable section

namespace Cert.RefOps

open Cert.ReferenceIdeal Cert.ReferenceIdeal.Gen Idealize.ShloMosaic Idealize.ShloMosaic.TcCoe Idealize.ShloMosaic.ValueIdx

namespace B

theorem bcast0_128 (x : FVec Ideal S_ .f32) (r : Fin 50000) (j : Fin 128) :
    broadcastInDim S50000x128 ![] bcast_S_S50000x128 x (ix2 r j) = x ix0 :=
  broadcastInDim_apply _ bcast_S_S50000x128 x (ix2 r j) ix0 (fun a => a.elim0)

theorem bcast0_256 (x : FVec Ideal S_ .f32) (r : Fin 50000) (k : Fin 256) :
    broadcastInDim S50000x256 ![] bcast_S_S50000x256 x (ix2 r k) = x ix0 :=
  broadcastInDim_apply _ bcast_S_S50000x256 x (ix2 r k) ix0 (fun a => a.elim0)

theorem bcast0_vec128 (x : FVec Ideal S_ .f32) (j : Fin 128) :
    broadcastInDim S128 ![] bcast_S_S128 x (ix1 j) = x ix0 :=
  broadcastInDim_apply _ bcast_S_S128 x (ix1 j) ix0 (fun a => a.elim0)

theorem rows128_ix2 (v : FVec Ideal S128 .f32) (r : Fin 50000) (j : Fin 128) :
    rows128 (F := Ideal) v (ix2 r j) = v (ix1 j) := by
  unfold rows128
  refine (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 v (ix2 (0 : Fin 1) j) (ix1 j) (fun a => match a with
    | ⟨0, _⟩ => by show j.val = if (128 : Nat) = 1 then 0 else j.val; rw [if_neg (by decide)])

theorem rows256_ix2 (v : FVec Ideal S256 .f32) (r : Fin 50000) (k : Fin 256) :
    broadcastInDim S50000x256 ![0, 1] bcast_S1x256_S50000x256_0_1 (broadcastInDim S1x256 ![1] bcast_S256_S1x256_1 v) (ix2 r k)
      = v (ix1 k) := by
  refine (broadcastInDim_apply _ bcast_S1x256_S50000x256_0_1 _ (ix2 r k) (ix2 (0 : Fin 1) k) (fun a => match a with
    | ⟨0, _⟩ => by show 0 = if (1 : Nat) = 1 then 0 else r.val; rw [if_pos rfl]
    | ⟨1, _⟩ => by show k.val = if (256 : Nat) = 1 then 0 else k.val; rw [if_neg (by decide)])).trans ?_
  exact broadcastInDim_apply _ bcast_S256_S1x256_1 v (ix2 (0 : Fin 1) k) (ix1 k) (fun a => match a with
    | ⟨0, _⟩ => by show k.val = if (256 : Nat) = 1 then 0 else k.val; rw [if_neg (by decide)])

theorem zeros_ix2 (r : Fin 50000) (j : Fin 128) : zeros50000x128 (F := Ideal) (ix2 r j) = Spec.zeroW := by
  unfold zeros50000x128
  exact bcast0_128 _ r j

theorem dot1_ix2 (x : FVec Ideal S50000x128 .f32) (w : FVec Ideal S128x256 .f32) (r : Fin 50000) (c : Fin 256) :
    Host.dotGeneral (F := Ideal) dot_S50000x128_S128x256_S50000x256_1_0_0_1_n_n none x w (ix2 r c) = ∑ k : Fin 128, x (ix2 r k) * w (ix2 k c) :=
  Cert.Spec.dotGeneral_plain _ rfl x w r c

theorem dot2_ix2 (x : FVec Ideal S50000x256 .f32) (w : FVec Ideal S256x128 .f32) (r : Fin 50000) (c : Fin 128) :
    Host.dotGeneral (F := Ideal) dot_S50000x256_S256x128_S50000x128_1_0_0_1_n_n none x w (ix2 r c) = ∑ k : Fin 256, x (ix2 r k) * w (ix2 k c) :=
  Cert.Spec.dotGeneral_plain _ rfl x w r c

theorem zin_ix2 (h a : FVec Ideal S50000x128 .f32) (eps : FVec Ideal S_ .f32) (r : Fin 50000) (i : Fin 128) :
    addf (mulf (broadcastInDim S50000x128 ![] bcast_S_S50000x128 (addf (constant (F := Ideal) S_ .f32 0x3F800000#32) eps)) h) a (ix2 r i)
      = Spec.zinE h a (Spec.toMat11 eps) r i := by
  rw [addf_apply, mulf_apply, bcast0_128, addf_apply, constant_apply]
  rfl

theorem hid_ix2 (h a : FVec Ideal S50000x128 .f32) (eps : FVec Ideal S_ .f32) (w1 : FVec Ideal S128x256 .f32)
    (b1 : FVec Ideal S256 .f32) (r : Fin 50000) (k : Fin 256) :
    maximumf
        (addf
          (Host.dotGeneral (F := Ideal) dot_S50000x128_S128x256_S50000x256_1_0_0_1_n_n none
            (addf (mulf (broadcastInDim S50000x128 ![] bcast_S_S50000x128 (addf (constant (F := Ideal) S_ .f32 0x3F800000#32) eps)) h) a) w1)
          (broadcastInDim S50000x256 ![0, 1] bcast_S1x256_S50000x256_0_1 (broadcastInDim S1x256 ![1] bcast_S256_S1x256_1 b1)))
        (broadcastInDim S50000x256 ![] bcast_S_S50000x256 (constant (F := Ideal) S_ .f32 0x00000000#32)) (ix2 r k)
      = Spec.hidE h a (Spec.toMat11 eps) w1 (Spec.toRow1 b1) r k := by
  rw [maximumf_apply, addf_apply, dot1_ix2, rows256_ix2, bcast0_256, constant_apply]
  unfold Spec.hidE
  rw [Spec.toRow1_ix2]
  refine congrArg (fun s => max (s + b1 (ix1 k)) Spec.zeroW) ?_
  exact Finset.sum_congr rfl fun i _ => congrArg (· * w1 (ix2 i k)) (zin_ix2 h a eps r i)

end B

/-- The hidden activation is rewritten under the outer sum. -/
theorem mlp_eq (h a : FVec Ideal S50000x128 .f32) (eps : FVec Ideal S_ .f32) (w1 : FVec Ideal S128x256 .f32)
    (b1 : FVec Ideal S256 .f32) (w2 : FVec Ideal S256x128 .f32) (b2 : FVec Ideal S128 .f32) :
    mlp (F := Ideal) h a eps w1 b1 w2 b2 = Spec.mlpR h a (Spec.toMat11 eps) w1 (Spec.toRow1 b1) w2 (Spec.toRow1 b2) := by
  funext i
  obtain ⟨r, j, rfl⟩ : ∃ (r : Fin 50000) (j : Fin 128), i = ix2 r j := ⟨i 0, i 1, eq_ix2 i⟩
  rw [Spec.mlpR_ix2]
  unfold mlp Spec.mlpE
  rw [addf_apply, B.dot2_ix2, B.rows128_ix2, Spec.toRow1_ix2]
  refine congrArg (· + b2 (ix1 j)) ?_
  exact Finset.sum_congr rfl fun k _ => congrArg (· * w2 (ix2 k j)) (B.hid_ix2 h a eps w1 b1 r k)

theorem bn_eq (z : FVec Ideal S50000x128 .f32) (mu var g beta : FVec Ideal S128 .f32) :
    bn (F := Ideal) z mu var g beta
      = Spec.bnR z (Spec.toRow1 mu) (Spec.toRow1 var) (Spec.toRow1 g) (Spec.toRow1 beta) := by
  funext i
  obtain ⟨r, j, rfl⟩ : ∃ (r : Fin 50000) (j : Fin 128), i = ix2 r j := ⟨i 0, i 1, eq_ix2 i⟩
  rw [Spec.bnR_ix2]
  unfold bn Spec.bnE
  rw [maximumf_apply, addf_apply, mulf_apply, mulf_apply, subf_apply, B.rows128_ix2, B.rows128_ix2, B.rows128_ix2,
    B.rows128_ix2, B.zeros_ix2, Spec.toRow1_ix2, Spec.toRow1_ix2, Spec.toRow1_ix2, Spec.toRow1_ix2]
  refine congrArg (fun s => max (g (ix1 j) * (z (ix2 r j) - mu (ix1 j)) * s + beta (ix1 j)) Spec.zeroW) ?_
  show FloatOps.hostUnary .rsqrt
      (addf var (broadcastInDim S128 ![] bcast_S_S128 (constant (F := Ideal) S_ .f32 0x3727C5AC#32)) (ix1 j)) = _
  rw [Ideal.hostUnary_rsqrt_def, addf_apply, B.bcast0_vec128, constant_apply]

end Cert.RefOps

end
-- ==== Proof.KStages.lean ====
import proofs.«407318_j78761110274299_1_alg».proof.Proof.RSpecA
import proofs.«407318_j78761110274299_1_alg».proof.Proof.RSpecB

noncomputable section

namespace Cert.RefOps

open Cert.ReferenceIdeal Cert.ReferenceIdeal.Gen Idealize.ShloMosaic

/-- A layer is its seven stages composed: each stage's table substituted into the next gives the reference's layer. -/
theorem layer_of_stages {h : FVec Ideal S50000x128 .f32} {src dst : IVec S800000 32} {ea : FVec Ideal S800000x16 .f32}
    {w : FVec Ideal S16x128 .f32} {b : FVec Ideal S128 .f32} {eps : FVec Ideal S_ .f32} {w1 : FVec Ideal S128x256 .f32} {b1 : FVec Ideal S256 .f32}
    {w2 : FVec Ideal S256x128 .f32} {b2 g beta : FVec Ideal S128 .f32}
    {M xea xhs xw xb Z yh ya yeps yw1 yb1 yw2 yb2 O tz tmu tvar tg tbeta : _}
    (hM : M = Spec.msgR xea xhs xw xb) (e0 : xea = ea) (e1 : xhs = take h src) (e2 : xw = w) (e3 : xb = Spec.toRow1 b)
    (hZ : Z = Spec.mlpR yh ya yeps yw1 yb1 yw2 yb2) (f0 : yh = h) (f1 : ya = agg dst M) (f2 : yeps = Spec.toMat11 eps) (f3 : yw1 = w1)
    (f4 : yb1 = Spec.toRow1 b1) (f5 : yw2 = w2) (f6 : yb2 = Spec.toRow1 b2)
    (hO : O = Spec.bnR tz tmu tvar tg tbeta) (g0 : tz = Z) (g1 : tmu = Spec.toRow1 (colMean Z)) (g2 : tvar = Spec.toRow1 (colVar Z (colMean Z)))
    (g3 : tg = Spec.toRow1 g) (g4 : tbeta = Spec.toRow1 beta) :
    O = layer h src dst ea w b eps w1 b1 w2 b2 g beta := by
  subst e0 e1 e2 e3 f0 f2 f3 f4 f5 f6 g0 g1 g2 g3 g4 hO f1 hZ hM
  unfold layer
  rw [bn_eq, mlp_eq, msg_eq]

end Cert.RefOps

end
-- ==== Proof.KLayer0.lean ====
import proofs.«407318_j78761110274299_1_alg».proof.Proof.Gen.KernelIdeal.Frame
import proofs.«407318_j78761110274299_1_alg».proof.Proof.KParts
import proofs.«407318_j78761110274299_1_alg».proof.Proof.KLayout
import proofs.«407318_j78761110274299_1_alg».proof.Proof.RSpecA
import proofs.«407318_j78761110274299_1_alg».proof.Proof.RSpecB
import proofs.«407318_j78761110274299_1_alg».proof.Proof.KStages
import Idealize.ShloMosaic.Lib.StableHlo.Run
import Idealize.ShloMosaic.Lib.ValueIdx

noncomputable section

namespace Cert.KernelIdeal.KV

open Cert.KernelIdeal Cert.KernelIdeal.Gen Idealize.ShloMosaic Idealize.ShloMosaic.TcCoe Idealize.ShloMosaic.ValueIdx Idealize.SL.Sem

section Keeps

variable {F : FTy → Type} [FloatOps F] (U : Valuation τ sig (Elt F))

theorem keep_hostOps1_main_v5 :
    StableHlo.after hostOps1 U (Proc.devRef .tc main_v5) = U (Proc.devRef .tc main_v5) := by
  after_results_simp

theorem keep_hostOps1_1_main_v5 :
    StableHlo.after hostOps1_1 U (Proc.devRef .tc main_v5) = U (Proc.devRef .tc main_v5) := by
  after_results_simp

theorem keep_hostOps1_1_main_v6 :
    StableHlo.after hostOps1_1 U (Proc.devRef .tc main_v6) = U (Proc.devRef .tc main_v6) := by
  after_results_simp

theorem keep_hostOps2_main_v5 :
    StableHlo.after hostOps2 U (Proc.devRef .tc main_v5) = U (Proc.devRef .tc main_v5) := by
  after_results_simp

theorem keep_hostOps3_main_v29 :
    StableHlo.after hostOps3 U (Proc.devRef .tc main_v29) = U (Proc.devRef .tc main_v29) := by
  after_results_simp

end Keeps

/-- The first layer of the kernel program is the reference's layer at the first slices of the parameters. -/
theorem layer0_chain (m : (ℓ : Loc nD τ sig) → Buf (Elt Ideal) ℓ) (ρ : Dev nD → PrngReg) (c : Dev nD)
    (hr : ∀ e : Fin 800000, 0 ≤ (Cert.RefOps.srcOf (m ((c.tc : Thread nD τ).loc main_arg1)) (ix1 e)).toInt ∧ (Cert.RefOps.srcOf (m ((c.tc : Thread nD τ).loc main_arg1)) (ix1 e)).toInt < 50000) :
    W9 m ρ c (Proc.devRef .tc main_v48)
      = Cert.RefOps.layer0 (F := Ideal) (W2 m ρ c (Proc.devRef .tc main_v5)) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  Cert.RefOps.layer_of_stages (msg1_W5 m ρ c) (W4_arg3 ..)
    ((keep_hostOps1_1_main_v6 _).trans ((hostOps1_take (W2 m ρ c)).trans (by rw [W2_src]; exact takeK_eq _ _ hr)))
    (by rw [← W3_arg6 m ρ c]; after_results_simp; rfl)
    (Eq.trans (by rw [← W3_arg7 m ρ c]; after_results_simp; rfl) (Spec.shapeCast_row _ _))
    (mlp2_W7 m ρ c)
    ((keep_hostOps2_main_v5 _).trans ((W5_of_ne m ρ c main_v5 (by decide)).trans ((keep_hostOps1_1_main_v5 _).trans (keep_hostOps1_main_v5 _))))
    (by rw [← W5_dst m ρ c]; after_results_simp; rfl)
    (Eq.trans (by rw [← W5_arg12 m ρ c]; after_results_simp; rfl) (Spec.shapeCast_scalar _ _))
    (by rw [← W5_arg8 m ρ c]; after_results_simp; rfl)
    (Eq.trans (by rw [← W5_arg9 m ρ c]; after_results_simp; rfl) (Spec.shapeCast_row _ _))
    (by rw [← W5_arg10 m ρ c]; after_results_simp; rfl)
    (Eq.trans (by rw [← W5_arg11 m ρ c]; after_results_simp; rfl) (Spec.shapeCast_row _ _))
    (bn3_W9 m ρ c) (keep_hostOps3_main_v29 _)
    (Eq.trans (by after_results_simp; rfl) (Spec.shapeCast_row _ _))
    (Eq.trans (by after_results_simp; rfl) (Spec.shapeCast_row _ _))
    (Eq.trans (by rw [← W7_arg13 m ρ c]; after_results_simp; rfl) (Spec.shapeCast_row _ _))
    (Eq.trans (by rw [← W7_arg14 m ρ c]; after_results_simp; rfl) (Spec.shapeCast_row _ _))

end Cert.KernelIdeal.KV

end
-- ==== Proof.KLayer1.lean ====
import proofs.«407318_j78761110274299_1_alg».proof.Proof.Gen.KernelIdeal.Frame
import proofs.«407318_j78761110274299_1_alg».proof.Proof.KParts
import proofs.«407318_j78761110274299_1_alg».proof.Proof.KLayout
import proofs.«407318_j78761110274299_1_alg».proof.Proof.RSpecA
import proofs.«407318_j78761110274299_1_alg».proof.Proof.RSpecB
import proofs.«407318_j78761110274299_1_alg».proof.Proof.KStages
import Idealize.ShloMosaic.Lib.StableHlo.Run
import Idealize.ShloMosaic.Lib.ValueIdx

noncomputable section

namespace Cert.KernelIdeal.KV

open Cert.KernelIdeal Cert.KernelIdeal.Gen Idealize.ShloMosaic Idealize.ShloMosaic.TcCoe Idealize.ShloMosaic.ValueIdx Idealize.SL.Sem

section Keeps

variable {F : FTy → Type} [FloatOps F] (U : Valuation τ sig (Elt F))

theorem keep_hostOps4_main_v48 :
    StableHlo.after hostOps4 U (Proc.devRef .tc main_v48) = U (Proc.devRef .tc main_v48) := by
  after_results_simp

theorem keep_hostOps4_1_main_v48 :
    StableHlo.after hostOps4_1 U (Proc.devRef .tc main_v48) = U (Proc.devRef .tc main_v48) := by
  after_results_simp

theorem keep_hostOps4_1_main_v49 :
    StableHlo.after hostOps4_1 U (Proc.devRef .tc main_v49) = U (Proc.devRef .tc main_v49) := by
  after_results_simp

theorem keep_hostOps5_main_v48 :
    StableHlo.after hostOps5 U (Proc.devRef .tc main_v48) = U (Proc.devRef .tc main_v48) := by
  after_results_simp

theorem keep_hostOps6_main_v72 :
    StableHlo.after hostOps6 U (Proc.devRef .tc main_v72) = U (Proc.devRef .tc main_v72) := by
  after_results_simp

end Keeps

/-- The second layer of the kernel program is the reference's layer at the second slices of the parameters. -/
theorem layer1_chain (m : (ℓ : Loc nD τ sig) → Buf (Elt Ideal) ℓ) (ρ : Dev nD → PrngReg) (c : Dev nD)
    (hr : ∀ e : Fin 800000, 0 ≤ (Cert.RefOps.srcOf (m ((c.tc : Thread nD τ).loc main_arg1)) (ix1 e)).toInt ∧ (Cert.RefOps.srcOf (m ((c.tc : Thread nD τ).loc main_arg1)) (ix1 e)).toInt < 50000) :
    W16 m ρ c (Proc.devRef .tc main_v91)
      = Cert.RefOps.layer1 (F := Ideal) (W9 m ρ c (Proc.devRef .tc main_v48)) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  Cert.RefOps.layer_of_stages (msg4_W12 m ρ c) (W11_arg3 ..)
    ((keep_hostOps4_1_main_v49 _).trans ((hostOps4_take (W9 m ρ c)).trans (by rw [W9_src]; exact takeK_eq _ _ hr)))
    (by rw [← W10_arg6 m ρ c]; after_results_simp; rfl)
    (Eq.trans (by rw [← W10_arg7 m ρ c]; after_results_simp; rfl) (Spec.shapeCast_row _ _))
    (mlp5_W7 m ρ c)
    ((keep_hostOps5_main_v48 _).trans ((W12_of_ne m ρ c main_v48 (by decide)).trans ((keep_hostOps4_1_main_v48 _).trans (keep_hostOps4_main_v48 _))))
    (by rw [← W12_dst m ρ c]; after_results_simp; rfl)
    (Eq.trans (by rw [← W12_arg12 m ρ c]; after_results_simp; rfl) (Spec.shapeCast_scalar _ _))
    (by rw [← W12_arg8 m ρ c]; after_results_simp; rfl)
    (Eq.trans (by rw [← W12_arg9 m ρ c]; after_results_simp; rfl) (Spec.shapeCast_row _ _))
    (by rw [← W12_arg10 m ρ c]; after_results_simp; rfl)
    (Eq.trans (by rw [← W12_arg11 m ρ c]; after_results_simp; rfl) (Spec.shapeCast_row _ _))
    (bn6_W16 m ρ c) (keep_hostOps6_main_v72 _)
    (Eq.trans (by after_results_simp; rfl) (Spec.shapeCast_row _ _))
    (Eq.trans (by after_results_simp; rfl) (Spec.shapeCast_row _ _))
    (Eq.trans (by rw [← W14_arg13 m ρ c]; after_results_simp; rfl) (Spec.shapeCast_row _ _))
    (Eq.trans (by rw [← W14_arg14 m ρ c]; after_results_simp; rfl) (Spec.shapeCast_row _ _))

end Cert.KernelIdeal.KV

end
-- ==== Proof.KLayer2.lean ====
import proofs.«407318_j78761110274299_1_alg».proof.Proof.Gen.KernelIdeal.Frame
import proofs.«407318_j78761110274299_1_alg».proof.Proof.KParts
import proofs.«407318_j78761110274299_1_alg».proof.Proof.KLayout
import proofs.«407318_j78761110274299_1_alg».proof.Proof.RSpecA
import proofs.«407318_j78761110274299_1_alg».proof.Proof.RSpecB
import proofs.«407318_j78761110274299_1_alg».proof.Proof.KStages
import Idealize.ShloMosaic.Lib.StableHlo.Run
import Idealize.ShloMosaic.Lib.ValueIdx

noncomputable section

namespace Cert.KernelIdeal.KV

open Cert.KernelIdeal Cert.KernelIdeal.Gen Idealize.ShloMosaic Idealize.ShloMosaic.TcCoe Idealize.ShloMosaic.ValueIdx Idealize.SL.Sem

section Keeps

variable {F : FTy → Type} [FloatOps F] (U : Valuation τ sig (Elt F))

theorem keep_hostOps7_main_v91 :
    StableHlo.after hostOps7 U (Proc.devRef .tc main_v91) = U (Proc.devRef .tc main_v91) := by
  after_results_simp

theorem keep_hostOps7_1_main_v91 :
    StableHlo.after hostOps7_1 U (Proc.devRef .tc main_v91) = U (Proc.devRef .tc main_v91) := by
  after_results_simp

theorem keep_hostOps7_1_main_v92 :
    StableHlo.after hostOps7_1 U (Proc.devRef .tc main_v92) = U (Proc.devRef .tc main_v92) := by
  after_results_simp

theorem keep_hostOps8_main_v91 :
    StableHlo.after hostOps8 U (Proc.devRef .tc main_v91) = U (Proc.devRef .tc main_v91) := by
  after_results_simp

theorem keep_hostOps9_main_v115 :
    StableHlo.after hostOps9 U (Proc.devRef .tc main_v115) = U (Proc.devRef .tc main_v115) := by
  after_results_simp

end Keeps

/-- The third layer of the kernel program is the reference's layer at the third slices of the parameters. -/
theorem layer2_chain (m : (ℓ : Loc nD τ sig) → Buf (Elt Ideal) ℓ) (ρ : Dev nD → PrngReg) (c : Dev nD)
    (hr : ∀ e : Fin 800000, 0 ≤ (Cert.RefOps.srcOf (m ((c.tc : Thread nD τ).loc main_arg1)) (ix1 e)).toInt ∧ (Cert.RefOps.srcOf (m ((c.tc : Thread nD τ).loc main_arg1)) (ix1 e)).toInt < 50000) :
    W23 m ρ c (Proc.devRef .tc main_v134)
      = Cert.RefOps.layer2 (F := Ideal) (W16 m ρ c (Proc.devRef .tc main_v91)) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  Cert.RefOps.layer_of_stages (msg7_W19 m ρ c) (W18_arg3 ..)
    ((keep_hostOps7_1_main_v92 _).trans ((hostOps7_take (W16 m ρ c)).trans (by rw [W16_src]; exact takeK_eq _ _ hr)))
    (by rw [← W17_arg6 m ρ c]; after_results_simp; rfl)
    (Eq.trans (by rw [← W17_arg7 m ρ c]; after_results_simp; rfl) (Spec.shapeCast_row _ _))
    (mlp8_W7 m ρ c)
    ((keep_hostOps8_main_v91 _).trans ((W19_of_ne m ρ c main_v91 (by decide)).trans ((keep_hostOps7_1_main_v91 _).trans (keep_hostOps7_main_v91 _))))
    (by rw [← W19_dst m ρ c]; after_results_simp; rfl)
    (Eq.trans (by rw [← W19_arg12 m ρ c]; after_results_simp; rfl) (Spec.shapeCast_scalar _ _))
    (by rw [← W19_arg8 m ρ c]; after_results_simp; rfl)
    (Eq.trans (by rw [← W19_arg9 m ρ c]; after_results_simp; rfl) (Spec.shapeCast_row _ _))
    (by rw [← W19_arg10 m ρ c]; after_results_simp; rfl)
    (Eq.trans (by rw [← W19_arg11 m ρ c]; after_results_simp; rfl) (Spec.shapeCast_row _ _))
    (bn9_W23 m ρ c) (keep_hostOps9_main_v115 _)
    (Eq.trans (by after_results_simp; rfl) (Spec.shapeCast_row _ _))
    (Eq.trans (by after_results_simp; rfl) (Spec.shapeCast_row _ _))
    (Eq.trans (by rw [← W21_arg13 m ρ c]; after_results_simp; rfl) (Spec.shapeCast_row _ _))
    (Eq.trans (by rw [← W21_arg14 m ρ c]; after_results_simp; rfl) (Spec.shapeCast_row _ _))

end Cert.KernelIdeal.KV

end
-- ==== Proof.KChain.lean ====
import proofs.«407318_j78761110274299_1_alg».proof.Proof.KEnds
import proofs.«407318_j78761110274299_1_alg».proof.Proof.KLayer0
import proofs.«407318_j78761110274299_1_alg».proof.Proof.KLayer1
import proofs.«407318_j78761110274299_1_alg».proof.Proof.KLayer2

noncomputable section

namespace Cert.KernelIdeal.KV

open Cert.KernelIdeal Cert.KernelIdeal.Gen Idealize.ShloMosaic Idealize.ShloMosaic.TcCoe Idealize.ShloMosaic.ValueIdx Idealize.SL.Sem

/-- The kernel program's result is the network function of the arguments, given the source indices in range. -/
theorem result_eq (m : (ℓ : Loc nD τ sig) → Buf (Elt Ideal) ℓ) (ρ : Dev nD → PrngReg) (c : Dev nD)
    (hr : ∀ e : Fin 800000, 0 ≤ (Cert.RefOps.srcOf (m ((c.tc : Thread nD τ).loc main_arg1)) (ix1 e)).toInt
      ∧ (Cert.RefOps.srcOf (m ((c.tc : Thread nD τ).loc main_arg1)) (ix1 e)).toInt < 50000) :
    W25 m ρ c (Proc.devRef .tc main_v148)
      = Cert.RefOps.top (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [fin_chain m ρ c, layer2_chain m ρ c hr, layer1_chain m ρ c hr, layer0_chain m ρ c hr, lin_chain m ρ c]
  rfl

end Cert.KernelIdeal.KV

end
-- ==== Proof.RefRunOps.lean ====
import proofs.«407318_j78761110274299_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

section Line

variable {τ : Topo} {sig : RefSig} {Val : EltTy → Type}

/-- An operation made by one of the plain builders, with the reference it writes. -/
inductive Plain : Ref sig .tc → HloOp τ sig Val → Prop
  | unary (x y f hx hy) : Plain y (unary x y f hx hy)
  | binary (a b y f ha hb hy) : Plain y (binary a b y f ha hb hy)
  | nullary (y v hy) : Plain y (nullary y v hy)
  | reshape (x y he hn hx hy) : Plain y (reshape x y he hn hx hy)
  | ternary (c a b y f hc ha hb hy) : Plain y (ternary c a b y f hc ha hb hy)

/-- A line of such operations, with the references they write in order. -/
inductive Line : List (Ref sig .tc) → List (HloOp τ sig Val) → Prop
  | nil : Line [] []
  | cons {y op W p} : Plain y op → Line W p → Line (y :: W) (op :: p)

variable {W : List (Ref sig .tc)} {p : List (HloOp τ sig Val)}

/-- What holds of every plain operation holds all along a line. -/
theorem Line.all {P : HloOp τ sig Val → Prop} (hP : ∀ {y op}, Plain y op → P op) (h : Line W p) : p.Forall P := by
  induction h with
  | nil => trivial
  | cons hy _ ih => exact (List.forall_cons ..).mpr ⟨hP hy, ih⟩

theorem Line.sub (h : Line W p) : p.Forall fun op => op.bufs ⊆ tcRefs τ sig :=
  h.all fun hy => by
    cases hy
    exacts [unary_bufs_sub .., binary_bufs_sub .., nullary_bufs_sub .., reshape_bufs_sub .., ternary_bufs_sub ..]

theorem Line.fresh (h : Line W p) : p.Forall fun op => op.fresh = ∅ :=
  h.all fun hy => by cases hy <;> rfl

/-- A reference the line does not write keeps its contents: each operation writes its own reference only. -/
theorem Line.frame (h : Line W p) (V : Valuation τ sig Val) {r : Ref sig .tc} (hr : r ∉ W) :
    after p V (Proc.devRef .tc r) = V (Proc.devRef .tc r) := by
  induction h generalizing V with
  | nil => rfl
  | @cons y op _ _ hy _ ih =>
    refine (ih _ (List.not_mem_of_not_mem_cons hr)).trans (op.result_of_not_mem _ ?_)
    have hw : op.writes = {Proc.devRef .tc y} := by cases hy <;> rfl
    rw [hw, Finset.mem_singleton]
    exact devRef_ne_of_ne (List.ne_of_not_mem_cons hr)

end Line

abbrev p0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    binary main_arg0 main_arg4 main_v4 (fun l r => Host.dotGeneral dot_S50000x64_S64x128_S50000x128_1_0_0_1_n_n none l r),
    unary main_arg5 main_v5 (broadcastInDim S1x128 ![1] bcast_S128_S1x128_1),
    unary main_v5 main_v6 (broadcastInDim S50000x128 ![0, 1] bcast_S1x128_S50000x128_0_1),
    binary main_v4 main_v6 main_v7 addf ]

abbrev W0 : List (Ref sig .tc) :=
  [main_v0, main_v1, main_v2, main_v3, main_v4, main_v5, main_v6, main_v7]

theorem p0_line : Line W0 (p0 (F := F)) := by repeat' constructor

theorem p0_frame (V : Valuation τ sig (Elt F)) {r : Ref sig .tc} (hr : r ∉ W0) :
    after p0 V (Proc.devRef .tc r) = V (Proc.devRef .tc r) :=
  p0_line.frame V hr

theorem p0_sub : (p0 (F := F)).Forall fun op => op.bufs ⊆ tcRefs τ sig :=
  p0_line.sub

theorem p0_fresh : (p0 (F := F)).Forall fun op => op.fresh = ∅ :=
  p0_line.fresh

abbrev p1 : List (HloOp τ sig (Elt F)) :=
  [ unary main_arg6 main_v8 (extractStridedSlice S1x16x128 ![0, 0, 0] · slices_S3x16x128_S1x16x128_0_0_0),
    reshape main_v8 main_v9 rfl shapeCasts_S1x16x128_S16x128,
    binary main_arg3 main_v9 main_v10 (fun l r => Host.dotGeneral dot_S800000x16_S16x128_S800000x128_1_0_0_1_n_n none l r),
    unary main_arg7 main_v11 (extractStridedSlice S1x128 ![0, 0] · slices_S3x128_S1x128_0_0),
    reshape main_v11 main_v12 rfl shapeCasts_S1x128_S128,
    unary main_v12 main_v13 (broadcastInDim S1x128 ![1] bcast_S128_S1x128_1),
    unary main_v13 main_v14 (broadcastInDim S800000x128 ![0, 1] bcast_S1x128_S800000x128_0_1),
    binary main_v10 main_v14 main_v15 addf,
    nullary main_c (constantI S_ 32 0#32),
    unary main_c main_v16 (broadcastInDim S800000 ![] bcast_S_S800000),
    binary main_v1 main_v16 main_v17 (cmpi .slt),
    nullary main_c_0 (constantI S_ 32 50000#32),
    unary main_c_0 main_v18 (broadcastInDim S800000 ![] bcast_S_S800000),
    binary main_v1 main_v18 main_v19 addi,
    ternary main_v17 main_v19 main_v1 main_v20 select,
    unary main_v20 main_v21 (broadcastInDim S800000x1 ![0] bcast_S800000_S800000x1_0),
    binary main_v7 main_v21 main_v22 (fun x i => Host.gather gather_S50000x128_S800000x1_S800000x128_1_0_n_n_0_1_1128 x i),
    binary main_v22 main_v15 main_v23 addf,
    TRef.nullary (TRef.of (T := ⟨S_, .f32⟩) main_call0_cst) (constant S_ .f32 0x00000000#32),
    TRef.unary (TRef.of (T := ⟨S_, .f32⟩) main_call0_cst) (TRef.of (T := ⟨S800000x128, .f32⟩) main_call0_v0) (broadcastInDim S800000x128 ![] bcast_S_S800000x128),
    TRef.binary (TRef.of (T := ⟨S800000x128, .f32⟩) main_v23) (TRef.of (T := ⟨S800000x128, .f32⟩) main_call0_v0) (TRef.of (T := ⟨S800000x128, .f32⟩) main_v24) maximumf,
    nullary main_cst (constant S_ .f32 0x00000000#32),
    unary main_cst main_v25 (broadcastInDim S50000x128 ![] bcast_S_S50000x128),
    unary main_v3 main_v26 (broadcastInDim S800000x1 ![0] bcast_S800000_S800000x1_0),
    ternary main_v25 main_v26 main_v24 main_v27 (fun x i u => Host.scatterAdd scatter_S50000x128_S800000x1_S800000x128_1_0_0_1 x i u),
    unary main_arg12 main_v28 (extractStridedSlice S1 ![0] · slices_S3_S1_0),
    reshape main_v28 main_v29 rfl shapeCasts_S1_S_,
    nullary main_cst_1 (constant S_ .f32 0x3F800000#32),
    binary main_cst_1 main_v29 main_v30 addf,
    unary main_v30 main_v31 (broadcastInDim S50000x128 ![] bcast_S_S50000x128),
    binary main_v31 main_v7 main_v32 mulf,
    binary main_v32 main_v27 main_v33 addf,
    unary main_arg8 main_v34 (extractStridedSlice S1x128x256 ![0, 0, 0] · slices_S3x128x256_S1x128x256_0_0_0),
    reshape main_v34 main_v35 rfl shapeCasts_S1x128x256_S128x256,
    binary main_v33 main_v35 main_v36 (fun l r => Host.dotGeneral dot_S50000x128_S128x256_S50000x256_1_0_0_1_n_n none l r),
    unary main_arg9 main_v37 (extractStridedSlice S1x256 ![0, 0] · slices_S3x256_S1x256_0_0),
    reshape main_v37 main_v38 rfl shapeCasts_S1x256_S256,
    unary main_v38 main_v39 (broadcastInDim S1x256 ![1] bcast_S256_S1x256_1),
    unary main_v39 main_v40 (broadcastInDim S50000x256 ![0, 1] bcast_S1x256_S50000x256_0_1),
    binary main_v36 main_v40 main_v41 addf,
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v41) (TRef.of (T := ⟨S50000x256, .f32⟩) main_call1_v0) (TRef.of (T := ⟨S50000x256, .f32⟩) main_v42) maximumf,
    unary main_arg10 main_v43 (extractStridedSlice S1x256x128 ![0, 0, 0] · slices_S3x256x128_S1x256x128_0_0_0),
    reshape main_v43 main_v44 rfl shapeCasts_S1x256x128_S256x128,
    binary main_v42 main_v44 main_v45 (fun l r => Host.dotGeneral dot_S50000x256_S256x128_S50000x128_1_0_0_1_n_n none l r),
    unary main_arg11 main_v46 (extractStridedSlice S1x128 ![0, 0] · slices_S3x128_S1x128_0_0),
    reshape main_v46 main_v47 rfl shapeCasts_S1x128_S128,
    unary main_v47 main_v48 (broadcastInDim S1x128 ![1] bcast_S128_S1x128_1),
    unary main_v48 main_v49 (broadcastInDim S50000x128 ![0, 1] bcast_S1x128_S50000x128_0_1),
    binary main_v45 main_v49 main_v50 addf ]

abbrev W1 : List (Ref sig .tc) :=
  [main_v8, main_v9, main_v10, main_v11, main_v12, main_v13, main_v14, main_v15, main_c, main_v16, main_v17, main_c_0, main_v18, main_v19, main_v20, main_v21, main_v22, main_v23, main_call0_cst, main_call0_v0, main_v24, main_cst, main_v25, main_v26, main_v27, main_v28, main_v29, main_cst_1, main_v30, main_v31, main_v32, main_v33, main_v34, main_v35, main_v36, main_v37, main_v38, main_v39, main_v40, main_v41, main_call1_cst, main_call1_v0, main_v42, main_v43, main_v44, main_v45, main_v46, main_v47, main_v48, main_v49, main_v50]

theorem p1_line : Line W1 (p1 (F := F)) := by repeat' constructor

theorem p1_frame (V : Valuation τ sig (Elt F)) {r : Ref sig .tc} (hr : r ∉ W1) :
    after p1 V (Proc.devRef .tc r) = V (Proc.devRef .tc r) :=
  p1_line.frame V hr

theorem p1_sub : (p1 (F := F)).Forall fun op => op.bufs ⊆ tcRefs τ sig :=
  p1_line.sub

theorem p1_fresh : (p1 (F := F)).Forall fun op => op.fresh = ∅ :=
  p1_line.fresh

abbrev p2 : List (HloOp τ sig (Elt F)) :=
  [ nullary main_cst_2 (constant S_ .f32 0x00000000#32),
    binary main_v50 main_cst_2 main_v51 (fun x v => Host.reduceAdd x v reducesTo_S50000x128_S128_d0 h_S_),
    nullary main_cst_3 (constant S_ .f32 0x47435000#32),
    unary main_cst_3 main_v52 (broadcastInDim S128 ![] bcast_S_S128),
    binary main_v51 main_v52 main_v53 Host.divf ]

abbrev W2 : List (Ref sig .tc) :=
  [main_cst_2, main_v51, main_cst_3, main_v52, main_v53]

theorem p2_line : Line W2 (p2 (F := F)) := by repeat' constructor

theorem p2_frame (V : Valuation τ sig (Elt F)) {r : Ref sig .tc} (hr : r ∉ W2) :
    after p2 V (Proc.devRef .tc r) = V (Proc.devRef .tc r) :=
  p2_line.frame V hr

theorem p2_sub : (p2 (F := F)).Forall fun op => op.bufs ⊆ tcRefs τ sig :=
  p2_line.sub

theorem p2_fresh : (p2 (F := F)).Forall fun op => op.fresh = ∅ :=
  p2_line.fresh

abbrev p3 : List (HloOp τ sig (Elt F)) :=
  [ unary main_v53 main_v54 (broadcastInDim S1x128 ![1] bcast_S128_S1x128_1),
    unary main_v54 main_v55 (broadcastInDim S50000x128 ![0, 1] bcast_S1x128_S50000x128_0_1),
    binary main_v50 main_v55 main_v56 subf,
    binary main_v56 main_v56 main_v57 mulf,
    nullary main_cst_4 (constant S_ .f32 0x00000000#32),
    binary main_v57 main_cst_4 main_v58 (fun x v => Host.reduceAdd x v reducesTo_S50000x128_S128_d0 h_S_),
    nullary main_cst_5 (constant S_ .f32 0x47435000#32),
    unary main_cst_5 main_v59 (broadcastInDim S128 ![] bcast_S_S128),
    binary main_v58 main_v59 main_v60 Host.divf,
    unary main_arg13 main_v61 (extractStridedSlice S1x128 ![0, 0] · slices_S3x128_S1x128_0_0),
    reshape main_v61 main_v62 rfl shapeCasts_S1x128_S128,
    unary main_v53 main_v63 (broadcastInDim S1x128 ![1] bcast_S128_S1x128_1),
    unary main_v63 main_v64 (broadcastInDim S50000x128 ![0, 1] bcast_S1x128_S50000x128_0_1),
    binary main_v50 main_v64 main_v65 subf,
    unary main_v62 main_v66 (broadcastInDim S1x128 ![1] bcast_S128_S1x128_1),
    unary main_v66 main_v67 (broadcastInDim S50000x128 ![0, 1] bcast_S1x128_S50000x128_0_1),
    binary main_v67 main_v65 main_v68 mulf,
    nullary main_cst_6 (constant S_ .f32 0x3727C5AC#32),
    unary main_cst_6 main_v69 (broadcastInDim S128 ![] bcast_S_S128),
    binary main_v60 main_v69 main_v70 addf,
    unary main_v70 main_v71 Host.rsqrt,
    unary main_v71 main_v72 (broadcastInDim S1x128 ![1] bcast_S128_S1x128_1),
    unary main_v72 main_v73 (broadcastInDim S50000x128 ![0, 1] bcast_S1x128_S50000x128_0_1),
    binary main_v68 main_v73 main_v74 mulf,
    unary main_arg14 main_v75 (extractStridedSlice S1x128 ![0, 0] · slices_S3x128_S1x128_0_0),
    reshape main_v75 main_v76 rfl shapeCasts_S1x128_S128,
    unary main_v76 main_v77 (broadcastInDim S1x128 ![1] bcast_S128_S1x128_1),
    unary main_v77 main_v78 (broadcastInDim S50000x128 ![0, 1] bcast_S1x128_S50000x128_0_1),
    binary main_v74 main_v78 main_v79 addf,
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v79) (TRef.of (T := ⟨S50000x128, .f32⟩) main_call2_v0) (TRef.of (T := ⟨S50000x128, .f32⟩) main_v80) maximumf ]

abbrev W3 : List (Ref sig .tc) :=
  [main_v54, main_v55, main_v56, main_v57, main_cst_4, main_v58, main_cst_5, main_v59, main_v60, main_v61, main_v62, main_v63, main_v64, main_v65, main_v66, main_v67, main_v68, main_cst_6, main_v69, main_v70, main_v71, main_v72, main_v73, main_v74, main_v75, main_v76, main_v77, main_v78, main_v79, main_call2_cst, main_call2_v0, main_v80]

theorem p3_line : Line W3 (p3 (F := F)) := by repeat' constructor

theorem p3_frame (V : Valuation τ sig (Elt F)) {r : Ref sig .tc} (hr : r ∉ W3) :
    after p3 V (Proc.devRef .tc r) = V (Proc.devRef .tc r) :=
  p3_line.frame V hr

theorem p3_sub : (p3 (F := F)).Forall fun op => op.bufs ⊆ tcRefs τ sig :=
  p3_line.sub

theorem p3_fresh : (p3 (F := F)).Forall fun op => op.fresh = ∅ :=
  p3_line.fresh

abbrev p4 : List (HloOp τ sig (Elt F)) :=
  [ unary main_arg6 main_v81 (extractStridedSlice S1x16x128 ![1, 0, 0] · slices_S3x16x128_S1x16x128_1_0_0),
    reshape main_v81 main_v82 rfl shapeCasts_S1x16x128_S16x128,
    binary main_arg3 main_v82 main_v83 (fun l r => Host.dotGeneral dot_S800000x16_S16x128_S800000x128_1_0_0_1_n_n none l r),
    unary main_arg7 main_v84 (extractStridedSlice S1x128 ![1, 0] · slices_S3x128_S1x128_1_0),
    reshape main_v84 main_v85 rfl shapeCasts_S1x128_S128,
    unary main_v85 main_v86 (broadcastInDim S1x128 ![1] bcast_S128_S1x128_1),
    unary main_v86 main_v87 (broadcastInDim S800000x128 ![0, 1] bcast_S1x128_S800000x128_0_1),
    binary main_v83 main_v87 main_v88 addf,
    nullary main_c_7 (constantI S_ 32 0#32),
    unary main_c_7 main_v89 (broadcastInDim S800000 ![] bcast_S_S800000),
    binary main_v1 main_v89 main_v90 (cmpi .slt),
    nullary main_c_8 (constantI S_ 32 50000#32),
    unary main_c_8 main_v91 (broadcastInDim S800000 ![] bcast_S_S800000),
    binary main_v1 main_v91 main_v92 addi,
    ternary main_v90 main_v92 main_v1 main_v93 select,
    unary main_v93 main_v94 (broadcastInDim S800000x1 ![0] bcast_S800000_S800000x1_0),
    binary main_v80 main_v94 main_v95 (fun x i => Host.gather gather_S50000x128_S800000x1_S800000x128_1_0_n_n_0_1_1128 x i),
    binary main_v95 main_v88 main_v96 addf,
    TRef.nullary (TRef.of (T := ⟨S_, .f32⟩) main_call3_cst) (constant S_ .f32 0x00000000#32),
    TRef.unary (TRef.of (T := ⟨S_, .f32⟩) main_call3_cst) (TRef.of (T := ⟨S800000x128, .f32⟩) main_call3_v0) (broadcastInDim S800000x128 ![] bcast_S_S800000x128),
    TRef.binary (TRef.of (T := ⟨S800000x128, .f32⟩) main_v96) (TRef.of (T := ⟨S800000x128, .f32⟩) main_call3_v0) (TRef.of (T := ⟨S800000x128, .f32⟩) main_v97) maximumf,
    nullary main_cst_9 (constant S_ .f32 0x00000000#32),
    unary main_cst_9 main_v98 (broadcastInDim S50000x128 ![] bcast_S_S50000x128),
    unary main_v3 main_v99 (broadcastInDim S800000x1 ![0] bcast_S800000_S800000x1_0),
    ternary main_v98 main_v99 main_v97 main_v100 (fun x i u => Host.scatterAdd scatter_S50000x128_S800000x1_S800000x128_1_0_0_1 x i u),
    unary main_arg12 main_v101 (extractStridedSlice S1 ![1] · slices_S3_S1_1),
    reshape main_v101 main_v102 rfl shapeCasts_S1_S_,
    nullary main_cst_10 (constant S_ .f32 0x3F800000#32),
    binary main_cst_10 main_v102 main_v103 addf,
    unary main_v103 main_v104 (broadcastInDim S50000x128 ![] bcast_S_S50000x128),
    binary main_v104 main_v80 main_v105 mulf,
    binary main_v105 main_v100 main_v106 addf ]

abbrev W4 : List (Ref sig .tc) :=
  [main_v81, main_v82, main_v83, main_v84, main_v85, main_v86, main_v87, main_v88, main_c_7, main_v89, main_v90, main_c_8, main_v91, main_v92, main_v93, main_v94, main_v95, main_v96, main_call3_cst, main_call3_v0, main_v97, main_cst_9, main_v98, main_v99, main_v100, main_v101, main_v102, main_cst_10, main_v103, main_v104, main_v105, main_v106]

theorem p4_line : Line W4 (p4 (F := F)) := by repeat' constructor

theorem p4_frame (V : Valuation τ sig (Elt F)) {r : Ref sig .tc} (hr : r ∉ W4) :
    after p4 V (Proc.devRef .tc r) = V (Proc.devRef .tc r) :=
  p4_line.frame V hr

theorem p4_sub : (p4 (F := F)).Forall fun op => op.bufs ⊆ tcRefs τ sig :=
  p4_line.sub

theorem p4_fresh : (p4 (F := F)).Forall fun op => op.fresh = ∅ :=
  p4_line.fresh

abbrev p5 : List (HloOp τ sig (Elt F)) :=
  [ unary main_arg8 main_v107 (extractStridedSlice S1x128x256 ![1, 0, 0] · slices_S3x128x256_S1x128x256_1_0_0),
    reshape main_v107 main_v108 rfl shapeCasts_S1x128x256_S128x256,
    binary main_v106 main_v108 main_v109 (fun l r => Host.dotGeneral dot_S50000x128_S128x256_S50000x256_1_0_0_1_n_n none l r),
    unary main_arg9 main_v110 (extractStridedSlice S1x256 ![1, 0] · slices_S3x256_S1x256_1_0),
    reshape main_v110 main_v111 rfl shapeCasts_S1x256_S256,
    unary main_v111 main_v112 (broadcastInDim S1x256 ![1] bcast_S256_S1x256_1),
    unary main_v112 main_v113 (broadcastInDim S50000x256 ![0, 1] bcast_S1x256_S50000x256_0_1),
    binary main_v109 main_v113 main_v114 addf,
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v114) (TRef.of (T := ⟨S50000x256, .f32⟩) main_call4_v0) (TRef.of (T := ⟨S50000x256, .f32⟩) main_v115) maximumf,
    unary main_arg10 main_v116 (extractStridedSlice S1x256x128 ![1, 0, 0] · slices_S3x256x128_S1x256x128_1_0_0),
    reshape main_v116 main_v117 rfl shapeCasts_S1x256x128_S256x128,
    binary main_v115 main_v117 main_v118 (fun l r => Host.dotGeneral dot_S50000x256_S256x128_S50000x128_1_0_0_1_n_n none l r),
    unary main_arg11 main_v119 (extractStridedSlice S1x128 ![1, 0] · slices_S3x128_S1x128_1_0),
    reshape main_v119 main_v120 rfl shapeCasts_S1x128_S128,
    unary main_v120 main_v121 (broadcastInDim S1x128 ![1] bcast_S128_S1x128_1),
    unary main_v121 main_v122 (broadcastInDim S50000x128 ![0, 1] bcast_S1x128_S50000x128_0_1),
    binary main_v118 main_v122 main_v123 addf ]

abbrev W5 : List (Ref sig .tc) :=
  [main_v107, main_v108, main_v109, main_v110, main_v111, main_v112, main_v113, main_v114, main_call4_cst, main_call4_v0, main_v115, main_v116, main_v117, main_v118, main_v119, main_v120, main_v121, main_v122, main_v123]

theorem p5_line : Line W5 (p5 (F := F)) := by repeat' constructor

theorem p5_frame (V : Valuation τ sig (Elt F)) {r : Ref sig .tc} (hr : r ∉ W5) :
    after p5 V (Proc.devRef .tc r) = V (Proc.devRef .tc r) :=
  p5_line.frame V hr

theorem p5_sub : (p5 (F := F)).Forall fun op => op.bufs ⊆ tcRefs τ sig :=
  p5_line.sub

theorem p5_fresh : (p5 (F := F)).Forall fun op => op.fresh = ∅ :=
  p5_line.fresh

abbrev p6 : List (HloOp τ sig (Elt F)) :=
  [ nullary main_cst_11 (constant S_ .f32 0x00000000#32),
    binary main_v123 main_cst_11 main_v124 (fun x v => Host.reduceAdd x v reducesTo_S50000x128_S128_d0 h_S_),
    nullary main_cst_12 (constant S_ .f32 0x47435000#32),
    unary main_cst_12 main_v125 (broadcastInDim S128 ![] bcast_S_S128),
    binary main_v124 main_v125 main_v126 Host.divf,
    unary main_v126 main_v127 (broadcastInDim S1x128 ![1] bcast_S128_S1x128_1),
    unary main_v127 main_v128 (broadcastInDim S50000x128 ![0, 1] bcast_S1x128_S50000x128_0_1),
    binary main_v123 main_v128 main_v129 subf,
    binary main_v129 main_v129 main_v130 mulf,
    nullary main_cst_13 (constant S_ .f32 0x00000000#32),
    binary main_v130 main_cst_13 main_v131 (fun x v => Host.reduceAdd x v reducesTo_S50000x128_S128_d0 h_S_),
    nullary main_cst_14 (constant S_ .f32 0x47435000#32),
    unary main_cst_14 main_v132 (broadcastInDim S128 ![] bcast_S_S128),
    binary main_v131 main_v132 main_v133 Host.divf,
    unary main_arg13 main_v134 (extractStridedSlice S1x128 ![1, 0] · slices_S3x128_S1x128_1_0),
    reshape main_v134 main_v135 rfl shapeCasts_S1x128_S128,
    unary main_v126 main_v136 (broadcastInDim S1x128 ![1] bcast_S128_S1x128_1),
    unary main_v136 main_v137 (broadcastInDim S50000x128 ![0, 1] bcast_S1x128_S50000x128_0_1),
    binary main_v123 main_v137 main_v138 subf,
    unary main_v135 main_v139 (broadcastInDim S1x128 ![1] bcast_S128_S1x128_1),
    unary main_v139 main_v140 (broadcastInDim S50000x128 ![0, 1] bcast_S1x128_S50000x128_0_1),
    binary main_v140 main_v138 main_v141 mulf,
    nullary main_cst_15 (constant S_ .f32 0x3727C5AC#32),
    unary main_cst_15 main_v142 (broadcastInDim S128 ![] bcast_S_S128),
    binary main_v133 main_v142 main_v143 addf,
    unary main_v143 main_v144 Host.rsqrt,
    unary main_v144 main_v145 (broadcastInDim S1x128 ![1] bcast_S128_S1x128_1),
    unary main_v145 main_v146 (broadcastInDim S50000x128 ![0, 1] bcast_S1x128_S50000x128_0_1),
    binary main_v141 main_v146 main_v147 mulf,
    unary main_arg14 main_v148 (extractStridedSlice S1x128 ![1, 0] · slices_S3x128_S1x128_1_0),
    reshape main_v148 main_v149 rfl shapeCasts_S1x128_S128,
    unary main_v149 main_v150 (broadcastInDim S1x128 ![1] bcast_S128_S1x128_1),
    unary main_v150 main_v151 (broadcastInDim S50000x128 ![0, 1] bcast_S1x128_S50000x128_0_1),
    binary main_v147 main_v151 main_v152 addf,
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v152) (TRef.of (T := ⟨S50000x128, .f32⟩) main_call5_v0) (TRef.of (T := ⟨S50000x128, .f32⟩) main_v153) maximumf ]

abbrev W6 : List (Ref sig .tc) :=
  [main_cst_11, main_v124, main_cst_12, main_v125, main_v126, main_v127, main_v128, main_v129, main_v130, main_cst_13, main_v131, main_cst_14, main_v132, main_v133, main_v134, main_v135, main_v136, main_v137, main_v138, main_v139, main_v140, main_v141, main_cst_15, main_v142, main_v143, main_v144, main_v145, main_v146, main_v147, main_v148, main_v149, main_v150, main_v151, main_v152, main_call5_cst, main_call5_v0, main_v153]

theorem p6_line : Line W6 (p6 (F := F)) := by repeat' constructor

theorem p6_frame (V : Valuation τ sig (Elt F)) {r : Ref sig .tc} (hr : r ∉ W6) :
    after p6 V (Proc.devRef .tc r) = V (Proc.devRef .tc r) :=
  p6_line.frame V hr

theorem p6_sub : (p6 (F := F)).Forall fun op => op.bufs ⊆ tcRefs τ sig :=
  p6_line.sub

theorem p6_fresh : (p6 (F := F)).Forall fun op => op.fresh = ∅ :=
  p6_line.fresh

abbrev p7 : List (HloOp τ sig (Elt F)) :=
  [ unary main_arg6 main_v154 (extractStridedSlice S1x16x128 ![2, 0, 0] · slices_S3x16x128_S1x16x128_2_0_0),
    reshape main_v154 main_v155 rfl shapeCasts_S1x16x128_S16x128,
    binary main_arg3 main_v155 main_v156 (fun l r => Host.dotGeneral dot_S800000x16_S16x128_S800000x128_1_0_0_1_n_n none l r),
    unary main_arg7 main_v157 (extractStridedSlice S1x128 ![2, 0] · slices_S3x128_S1x128_2_0),
    reshape main_v157 main_v158 rfl shapeCasts_S1x128_S128,
    unary main_v158 main_v159 (broadcastInDim S1x128 ![1] bcast_S128_S1x128_1),
    unary main_v159 main_v160 (broadcastInDim S800000x128 ![0, 1] bcast_S1x128_S800000x128_0_1),
    binary main_v156 main_v160 main_v161 addf ]

abbrev W7 : List (Ref sig .tc) :=
  [main_v154, main_v155, main_v156, main_v157, main_v158, main_v159, main_v160, main_v161]

theorem p7_line : Line W7 (p7 (F := F)) := by repeat' constructor

theorem p7_frame (V : Valuation τ sig (Elt F)) {r : Ref sig .tc} (hr : r ∉ W7) :
    after p7 V (Proc.devRef .tc r) = V (Proc.devRef .tc r) :=
  p7_line.frame V hr

theorem p7_sub : (p7 (F := F)).Forall fun op => op.bufs ⊆ tcRefs τ sig :=
  p7_line.sub

theorem p7_fresh : (p7 (F := F)).Forall fun op => op.fresh = ∅ :=
  p7_line.fresh

abbrev p8 : List (HloOp τ sig (Elt F)) :=
  [ nullary main_c_16 (constantI S_ 32 0#32),
    unary main_c_16 main_v162 (broadcastInDim S800000 ![] bcast_S_S800000),
    binary main_v1 main_v162 main_v163 (cmpi .slt),
    nullary main_c_17 (constantI S_ 32 50000#32),
    unary main_c_17 main_v164 (broadcastInDim S800000 ![] bcast_S_S800000),
    binary main_v1 main_v164 main_v165 addi,
    ternary main_v163 main_v165 main_v1 main_v166 select,
    unary main_v166 main_v167 (broadcastInDim S800000x1 ![0] bcast_S800000_S800000x1_0),
    binary main_v153 main_v167 main_v168 (fun x i => Host.gather gather_S50000x128_S800000x1_S800000x128_1_0_n_n_0_1_1128 x i),
    binary main_v168 main_v161 main_v169 addf,
    TRef.nullary (TRef.of (T := ⟨S_, .f32⟩) main_call6_cst) (constant S_ .f32 0x00000000#32),
    TRef.unary (TRef.of (T := ⟨S_, .f32⟩) main_call6_cst) (TRef.of (T := ⟨S800000x128, .f32⟩) main_call6_v0) (broadcastInDim S800000x128 ![] bcast_S_S800000x128),
    TRef.binary (TRef.of (T := ⟨S800000x128, .f32⟩) main_v169) (TRef.of (T := ⟨S800000x128, .f32⟩) main_call6_v0) (TRef.of (T := ⟨S800000x128, .f32⟩) main_v170) maximumf,
    nullary main_cst_18 (constant S_ .f32 0x00000000#32),
    unary main_cst_18 main_v171 (broadcastInDim S50000x128 ![] bcast_S_S50000x128),
    unary main_v3 main_v172 (broadcastInDim S800000x1 ![0] bcast_S800000_S800000x1_0),
    ternary main_v171 main_v172 main_v170 main_v173 (fun x i u => Host.scatterAdd scatter_S50000x128_S800000x1_S800000x128_1_0_0_1 x i u),
    unary main_arg12 main_v174 (extractStridedSlice S1 ![2] · slices_S3_S1_2),
    reshape main_v174 main_v175 rfl shapeCasts_S1_S_,
    nullary main_cst_19 (constant S_ .f32 0x3F800000#32),
    binary main_cst_19 main_v175 main_v176 addf,
    unary main_v176 main_v177 (broadcastInDim S50000x128 ![] bcast_S_S50000x128),
    binary main_v177 main_v153 main_v178 mulf,
    binary main_v178 main_v173 main_v179 addf,
    unary main_arg8 main_v180 (extractStridedSlice S1x128x256 ![2, 0, 0] · slices_S3x128x256_S1x128x256_2_0_0),
    reshape main_v180 main_v181 rfl shapeCasts_S1x128x256_S128x256,
    binary main_v179 main_v181 main_v182 (fun l r => Host.dotGeneral dot_S50000x128_S128x256_S50000x256_1_0_0_1_n_n none l r),
    unary main_arg9 main_v183 (extractStridedSlice S1x256 ![2, 0] · slices_S3x256_S1x256_2_0),
    reshape main_v183 main_v184 rfl shapeCasts_S1x256_S256,
    unary main_v184 main_v185 (broadcastInDim S1x256 ![1] bcast_S256_S1x256_1),
    unary main_v185 main_v186 (broadcastInDim S50000x256 ![0, 1] bcast_S1x256_S50000x256_0_1),
    binary main_v182 main_v186 main_v187 addf,
    TRef.nullary (TRef.of (T := ⟨S_, .f32⟩) main_call7_cst) (constant S_ .f32 0x00000000#32),
    TRef.unary (TRef.of (T := ⟨S_, .f32⟩) main_call7_cst) (TRef.of (T := ⟨S50000x256, .f32⟩) main_call7_v0) (broadcastInDim S50000x256 ![] bcast_S_S50000x256),
    TRef.binary (TRef.of (T := ⟨S50000x256, .f32⟩) main_v187) (TRef.of (T := ⟨S50000x256, .f32⟩) main_call7_v0) (TRef.of (T := ⟨S50000x256, .f32⟩) main_v188) maximumf,
    unary main_arg10 main_v189 (extractStridedSlice S1x256x128 ![2, 0, 0] · slices_S3x256x128_S1x256x128_2_0_0),
    reshape main_v189 main_v190 rfl shapeCasts_S1x256x128_S256x128,
    binary main_v188 main_v190 main_v191 (fun l r => Host.dotGeneral dot_S50000x256_S256x128_S50000x128_1_0_0_1_n_n none l r),
    unary main_arg11 main_v192 (extractStridedSlice S1x128 ![2, 0] · slices_S3x128_S1x128_2_0),
    reshape main_v192 main_v193 rfl shapeCasts_S1x128_S128,
    unary main_v193 main_v194 (broadcastInDim S1x128 ![1] bcast_S128_S1x128_1),
    unary main_v194 main_v195 (broadcastInDim S50000x128 ![0, 1] bcast_S1x128_S50000x128_0_1),
    binary main_v191 main_v195 main_v196 addf ]

abbrev W8 : List (Ref sig .tc) :=
  [main_c_16, main_v162, main_v163, main_c_17, main_v164, main_v165, main_v166, main_v167, main_v168, main_v169, main_call6_cst, main_call6_v0, main_v170, main_cst_18, main_v171, main_v172, main_v173, main_v174, main_v175, main_cst_19, main_v176, main_v177, main_v178, main_v179, main_v180, main_v181, main_v182, main_v183, main_v184, main_v185, main_v186, main_v187, main_call7_cst, main_call7_v0, main_v188, main_v189, main_v190, main_v191, main_v192, main_v193, main_v194, main_v195, main_v196]

theorem p8_line : Line W8 (p8 (F := F)) := by repeat' constructor

theorem p8_frame (V : Valuation τ sig (Elt F)) {r : Ref sig .tc} (hr : r ∉ W8) :
    after p8 V (Proc.devRef .tc r) = V (Proc.devRef .tc r) :=
  p8_line.frame V hr

theorem p8_sub : (p8 (F := F)).Forall fun op => op.bufs ⊆ tcRefs τ sig :=
  p8_line.sub

theorem p8_fresh : (p8 (F := F)).Forall fun op => op.fresh = ∅ :=
  p8_line.fresh

abbrev p9 : List (HloOp τ sig (Elt F)) :=
  [ nullary main_cst_20 (constant S_ .f32 0x00000000#32),
    binary main_v196 main_cst_20 main_v197 (fun x v => Host.reduceAdd x v reducesTo_S50000x128_S128_d0 h_S_),
    nullary main_cst_21 (constant S_ .f32 0x47435000#32),
    unary main_cst_21 main_v198 (broadcastInDim S128 ![] bcast_S_S128),
    binary main_v197 main_v198 main_v199 Host.divf,
    unary main_v199 main_v200 (broadcastInDim S1x128 ![1] bcast_S128_S1x128_1),
    unary main_v200 main_v201 (broadcastInDim S50000x128 ![0, 1] bcast_S1x128_S50000x128_0_1),
    binary main_v196 main_v201 main_v202 subf,
    binary main_v202 main_v202 main_v203 mulf,
    nullary main_cst_22 (constant S_ .f32 0x00000000#32),
    binary main_v203 main_cst_22 main_v204 (fun x v => Host.reduceAdd x v reducesTo_S50000x128_S128_d0 h_S_),
    nullary main_cst_23 (constant S_ .f32 0x47435000#32),
    unary main_cst_23 main_v205 (broadcastInDim S128 ![] bcast_S_S128),
    binary main_v204 main_v205 main_v206 Host.divf,
    unary main_arg13 main_v207 (extractStridedSlice S1x128 ![2, 0] · slices_S3x128_S1x128_2_0),
    reshape main_v207 main_v208 rfl shapeCasts_S1x128_S128,
    unary main_v199 main_v209 (broadcastInDim S1x128 ![1] bcast_S128_S1x128_1),
    unary main_v209 main_v210 (broadcastInDim S50000x128 ![0, 1] bcast_S1x128_S50000x128_0_1),
    binary main_v196 main_v210 main_v211 subf,
    unary main_v208 main_v212 (broadcastInDim S1x128 ![1] bcast_S128_S1x128_1),
    unary main_v212 main_v213 (broadcastInDim S50000x128 ![0, 1] bcast_S1x128_S50000x128_0_1) ]

abbrev W9 : List (Ref sig .tc) :=
  [main_cst_20, main_v197, main_cst_21, main_v198, main_v199, main_v200, main_v201, main_v202, main_v203, main_cst_22, main_v204, main_cst_23, main_v205, main_v206, main_v207, main_v208, main_v209, main_v210, main_v211, main_v212, main_v213]

theorem p9_line : Line W9 (p9 (F := F)) := by repeat' constructor

theorem p9_frame (V : Valuation τ sig (Elt F)) {r : Ref sig .tc} (hr : r ∉ W9) :
    after p9 V (Proc.devRef .tc r) = V (Proc.devRef .tc r) :=
  p9_line.frame V hr

theorem p9_sub : (p9 (F := F)).Forall fun op => op.bufs ⊆ tcRefs τ sig :=
  p9_line.sub

theorem p9_fresh : (p9 (F := F)).Forall fun op => op.fresh = ∅ :=
  p9_line.fresh

abbrev p10 : List (HloOp τ sig (Elt F)) :=
  [ binary main_v213 main_v211 main_v214 mulf,
    nullary main_cst_24 (constant S_ .f32 0x3727C5AC#32),
    unary main_cst_24 main_v215 (broadcastInDim S128 ![] bcast_S_S128),
    binary main_v206 main_v215 main_v216 addf,
    unary main_v216 main_v217 Host.rsqrt,
    unary main_v217 main_v218 (broadcastInDim S1x128 ![1] bcast_S128_S1x128_1),
    unary main_v218 main_v219 (broadcastInDim S50000x128 ![0, 1] bcast_S1x128_S50000x128_0_1),
    binary main_v214 main_v219 main_v220 mulf,
    unary main_arg14 main_v221 (extractStridedSlice S1x128 ![2, 0] · slices_S3x128_S1x128_2_0),
    reshape main_v221 main_v222 rfl shapeCasts_S1x128_S128,
    unary main_v222 main_v223 (broadcastInDim S1x128 ![1] bcast_S128_S1x128_1),
    unary main_v223 main_v224 (broadcastInDim S50000x128 ![0, 1] bcast_S1x128_S50000x128_0_1),
    binary main_v220 main_v224 main_v225 addf,
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v225) (TRef.of (T := ⟨S50000x128, .f32⟩) main_call8_v0) (TRef.of (T := ⟨S50000x128, .f32⟩) main_v226) maximumf ]

abbrev W10 : List (Ref sig .tc) :=
  [main_v214, main_cst_24, main_v215, main_v216, main_v217, main_v218, main_v219, main_v220, main_v221, main_v222, main_v223, main_v224, main_v225, main_call8_cst, main_call8_v0, main_v226]

theorem p10_line : Line W10 (p10 (F := F)) := by repeat' constructor

theorem p10_frame (V : Valuation τ sig (Elt F)) {r : Ref sig .tc} (hr : r ∉ W10) :
    after p10 V (Proc.devRef .tc r) = V (Proc.devRef .tc r) :=
  p10_line.frame V hr

theorem p10_sub : (p10 (F := F)).Forall fun op => op.bufs ⊆ tcRefs τ sig :=
  p10_line.sub

theorem p10_fresh : (p10 (F := F)).Forall fun op => op.fresh = ∅ :=
  p10_line.fresh

abbrev p11 : List (HloOp τ sig (Elt F)) :=
  [ nullary main_cst_25 (constant S_ .f32 0x3F800000#32),
    unary main_cst_25 main_v227 (broadcastInDim S50000 ![] bcast_S_S50000),
    nullary main_cst_26 (constant S_ .f32 0x00000000#32),
    unary main_cst_26 main_v228 (broadcastInDim S128 ![] bcast_S_S128),
    unary main_arg2 main_v229 (broadcastInDim S50000x1 ![0] bcast_S50000_S50000x1_0),
    ternary main_v228 main_v229 main_v227 main_v230 (fun x i u => Host.scatterAdd scatter_S128_S50000x1_S50000_n_0_0_1 x i u),
    nullary main_cst_27 (constant S_ .f32 0x00000000#32),
    unary main_cst_27 main_v231 (broadcastInDim S128x128 ![] bcast_S_S128x128),
    unary main_arg2 main_v232 (broadcastInDim S50000x1 ![0] bcast_S50000_S50000x1_0),
    ternary main_v231 main_v232 main_v226 main_v233 (fun x i u => Host.scatterAdd scatter_S128x128_S50000x1_S50000x128_1_0_0_1 x i u),
    nullary main_cst_28 (constant S_ .f32 0x3F800000#32),
    unary main_cst_28 main_v234 (broadcastInDim S128 ![] bcast_S_S128),
    binary main_v230 main_v234 main_v235 maximumf,
    unary main_v235 main_v236 (broadcastInDim S128x1 ![0] bcast_S128_S128x1_0),
    unary main_v236 main_v237 (broadcastInDim S128x128 ![0, 1] bcast_S128x1_S128x128_0_1),
    binary main_v233 main_v237 main_v238 Host.divf,
    binary main_v238 main_arg15 main_v239 (fun l r => Host.dotGeneral dot_S128x128_S128x16_S128x16_1_0_0_1_n_n none l r),
    unary main_arg16 main_v240 (broadcastInDim S1x16 ![1] bcast_S16_S1x16_1),
    unary main_v240 main_v241 (broadcastInDim S128x16 ![0, 1] bcast_S1x16_S128x16_0_1),
    binary main_v239 main_v241 main_v242 addf ]

abbrev W11 : List (Ref sig .tc) :=
  [main_cst_25, main_v227, main_cst_26, main_v228, main_v229, main_v230, main_cst_27, main_v231, main_v232, main_v233, main_cst_28, main_v234, main_v235, main_v236, main_v237, main_v238, main_v239, main_v240, main_v241, main_v242]

theorem p11_line : Line W11 (p11 (F := F)) := by repeat' constructor

theorem p11_frame (V : Valuation τ sig (Elt F)) {r : Ref sig .tc} (hr : r ∉ W11) :
    after p11 V (Proc.devRef .tc r) = V (Proc.devRef .tc r) :=
  p11_line.frame V hr

theorem p11_sub : (p11 (F := F)).Forall fun op => op.bufs ⊆ tcRefs τ sig :=
  p11_line.sub

theorem p11_fresh : (p11 (F := F)).Forall fun op => op.fresh = ∅ :=
  p11_line.fresh

end Cert.ReferenceIdeal.RefRun

end
-- ==== Proof.RefRunMain.lean ====
import proofs.«407318_j78761110274299_1_alg».proof.Proof.Gen.ReferenceIdeal
import Idealize.ShloMosaic.Lib.StableHlo.Run
import proofs.«407318_j78761110274299_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

theorem main_part0_eq (c : Dev nD) : main_part0 (F := F) c = seq (p0 ++ (p1 ++ p2)) := rfl

set_option maxRecDepth 8192 in
set_option maxHeartbeats 4000000 in
theorem main_part1_eq (c : Dev nD) : main_part1 (F := F) c = seq (p3 ++ p4) := rfl

set_option maxRecDepth 8192 in
set_option maxHeartbeats 4000000 in
theorem main_part2_eq (c : Dev nD) : main_part2 (F := F) c = seq (p5 ++ (p6 ++ p7)) := rfl

set_option maxRecDepth 8192 in
set_option maxHeartbeats 4000000 in
theorem main_part3_eq (c : Dev nD) : main_part3 (F := F) c = seq (p8 ++ p9) := rfl

set_option maxRecDepth 8192 in
set_option maxHeartbeats 4000000 in
theorem main_part4_eq (c : Dev nD) : main_part4 (F := F) c = seq (p10 ++ p11) := rfl

theorem main_eq (c : Dev nD) :
    main (F := F) c = seq (p0 ++ (p1 ++ (p2 ++ (p3 ++ (p4 ++ (p5 ++ (p6 ++ (p7 ++ (p8 ++ (p9 ++ (p10 ++ (p11)))))))))))) := by
  simp only [main, main_part0_eq, main_part1_eq, main_part2_eq, main_part3_eq, main_part4_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub :
    (p0 ++ (p1 ++ (p2 ++ (p3 ++ (p4 ++ (p5 ++ (p6 ++ (p7 ++ (p8 ++ (p9 ++ (p10 ++ (p11))))))))))) : List (HloOp τ sig (Elt F))).Forall fun op => op.bufs ⊆ tcRefs τ sig := by
  simp only [List.forall_append]
  exact ⟨p0_sub, p1_sub, p2_sub, p3_sub, p4_sub, p5_sub, p6_sub, p7_sub, p8_sub, p9_sub, p10_sub, p11_sub⟩

theorem ops_fresh :
    ∀ op ∈ (p0 ++ (p1 ++ (p2 ++ (p3 ++ (p4 ++ (p5 ++ (p6 ++ (p7 ++ (p8 ++ (p9 ++ (p10 ++ (p11))))))))))) : List (HloOp τ sig (Elt F))), op.fresh = ∅ :=
  List.forall_iff_forall_mem.mp (by
    simp only [List.forall_append]
    exact ⟨p0_fresh, p1_fresh, p2_fresh, p3_fresh, p4_fresh, p5_fresh, p6_fresh, p7_fresh, p8_fresh, p9_fresh, p10_fresh, p11_fresh⟩)

end Cert.ReferenceIdeal.RefRun

end
-- ==== Proof.RefRunVal.lean ====
import proofs.«407318_j78761110274299_1_alg».proof.Proof.Gen.ReferenceIdeal
import proofs.«407318_j78761110274299_1_alg».proof.Proof.RefOps
import Idealize.ShloMosaic.Lib.StableHlo.Run
import proofs.«407318_j78761110274299_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def pre (h a : FVec F S50000x128 .f32) (eps : FVec F S_ .f32) : FVec F S50000x128 .f32 :=
  addf (mulf (broadcastInDim S50000x128 ![] bcast_S_S50000x128 (addf (constant S_ .f32 0x3F800000#32) eps)) h) a

def post (x : FVec F S50000x128 .f32) (w1 : FVec F S128x256 .f32) (b1 : FVec F S256 .f32)
    (w2 : FVec F S256x128 .f32) (b2 : FVec F S128 .f32) : FVec F S50000x128 .f32 :=
  addf
    (Host.dotGeneral dot_S50000x256_S256x128_S50000x128_1_0_0_1_n_n none
      (maximumf
        (addf (Host.dotGeneral dot_S50000x128_S128x256_S50000x256_1_0_0_1_n_n none x w1)
          (broadcastInDim S50000x256 ![0, 1] bcast_S1x256_S50000x256_0_1 (broadcastInDim S1x256 ![1] bcast_S256_S1x256_1 b1)))
        (broadcastInDim S50000x256 ![] bcast_S_S50000x256 (constant S_ .f32 0x00000000#32)))
      w2)
    (Cert.RefOps.rows128 b2)

def eproj (ea : FVec F S800000x16 .f32) (w : FVec F S16x128 .f32) (b : FVec F S128 .f32) : FVec F S800000x128 .f32 :=
  addf (Host.dotGeneral dot_S800000x16_S16x128_S800000x128_1_0_0_1_n_n none ea w)
    (broadcastInDim S800000x128 ![0, 1] bcast_S1x128_S800000x128_0_1 (broadcastInDim S1x128 ![1] bcast_S128_S1x128_1 b))

def msgOf (hs e : FVec F S800000x128 .f32) : FVec F S800000x128 .f32 :=
  maximumf (addf hs e) (broadcastInDim S800000x128 ![] bcast_S_S800000x128 (constant S_ .f32 0x00000000#32))

def bnOf (gr d : FVec F S50000x128 .f32) (var beta : FVec F S128 .f32) : FVec F S50000x128 .f32 :=
  maximumf
    (addf
      (mulf (mulf gr d)
        (Cert.RefOps.rows128 (Host.rsqrt (addf var (broadcastInDim S128 ![] bcast_S_S128 (constant S_ .f32 0x3727C5AC#32))))))
      (Cert.RefOps.rows128 beta))
    Cert.RefOps.zeros50000x128

theorem mlp_eq (h a : FVec F S50000x128 .f32) (eps : FVec F S_ .f32) (w1 : FVec F S128x256 .f32) (b1 : FVec F S256 .f32)
    (w2 : FVec F S256x128 .f32) (b2 : FVec F S128 .f32) :
    Cert.RefOps.mlp h a eps w1 b1 w2 b2 = post (pre h a eps) w1 b1 w2 b2 := rfl

theorem msg_eq (ea : FVec F S800000x16 .f32) (hs : FVec F S800000x128 .f32) (w : FVec F S16x128 .f32) (b : FVec F S128 .f32) :
    Cert.RefOps.msg ea hs w b = msgOf hs (eproj ea w b) := rfl

theorem bn_eq (z : FVec F S50000x128 .f32) (mu var g beta : FVec F S128 .f32) :
    Cert.RefOps.bn z mu var g beta = bnOf (Cert.RefOps.rows128 g) (subf z (Cert.RefOps.rows128 mu)) var beta := rfl

theorem p0_v1 (V : Valuation τ sig (Elt F)) :
    after p0 V (Proc.devRef .tc main_v1)
      = Cert.RefOps.srcOf (V (Proc.devRef .tc main_arg1)) := by
  simp only [after_cons, after_nil]
  rfl

theorem p0_v3 (V : Valuation τ sig (Elt F)) :
    after p0 V (Proc.devRef .tc main_v3)
      = Cert.RefOps.dstOf (V (Proc.devRef .tc main_arg1)) := by
  simp only [after_cons, after_nil]
  rfl

theorem p0_v7 (V : Valuation τ sig (Elt F)) :
    after p0 V (Proc.devRef .tc main_v7)
      = Cert.RefOps.lin (V (Proc.devRef .tc main_arg0)) (V (Proc.devRef .tc main_arg4)) (V (Proc.devRef .tc main_arg5)) := by
  simp only [after_cons, after_nil]
  rfl

set_option maxRecDepth 8192 in
theorem p1_v50 (V : Valuation τ sig (Elt F)) :
    after p1 V (Proc.devRef .tc main_v50)
      = Cert.RefOps.mlp (V (Proc.devRef .tc main_v7)) (Cert.RefOps.agg (V (Proc.devRef .tc main_v3)) (Cert.RefOps.msg (V (Proc.devRef .tc main_arg3)) (Cert.RefOps.take (V (Proc.devRef .tc main_v7)) (V (Proc.devRef .tc main_v1))) (shapeCast _ (extractStridedSlice S1x16x128 ![0, 0, 0] (V (Proc.devRef .tc main_arg6)) slices_S3x16x128_S1x16x128_0_0_0) shapeCasts_S1x16x128_S16x128) (shapeCast _ (extractStridedSlice S1x128 ![0, 0] (V (Proc.devRef .tc main_arg7)) slices_S3x128_S1x128_0_0) shapeCasts_S1x128_S128)))
          (shapeCast _ (extractStridedSlice S1 ![0] (V (Proc.devRef .tc main_arg12)) slices_S3_S1_0) shapeCasts_S1_S_) (shapeCast _ (extractStridedSlice S1x128x256 ![0, 0, 0] (V (Proc.devRef .tc main_arg8)) slices_S3x128x256_S1x128x256_0_0_0) shapeCasts_S1x128x256_S128x256) (shapeCast _ (extractStridedSlice S1x256 ![0, 0] (V (Proc.devRef .tc main_arg9)) slices_S3x256_S1x256_0_0) shapeCasts_S1x256_S256) (shapeCast _ (extractStridedSlice S1x256x128 ![0, 0, 0] (V (Proc.devRef .tc main_arg10)) slices_S3x256x128_S1x256x128_0_0_0) shapeCasts_S1x256x128_S256x128) (shapeCast _ (extractStridedSlice S1x128 ![0, 0] (V (Proc.devRef .tc main_arg11)) slices_S3x128_S1x128_0_0) shapeCasts_S1x128_S128) := by
  simp only [after_cons, after_nil]
  rfl

theorem p2_v53 (V : Valuation τ sig (Elt F)) :
    after p2 V (Proc.devRef .tc main_v53)
      = Cert.RefOps.colMean (V (Proc.devRef .tc main_v50)) := by
  simp only [after_cons, after_nil]
  rfl

set_option maxRecDepth 8192 in
theorem p3_v80 (V : Valuation τ sig (Elt F)) :
    after p3 V (Proc.devRef .tc main_v80)
      = Cert.RefOps.bn (V (Proc.devRef .tc main_v50)) (V (Proc.devRef .tc main_v53)) (Cert.RefOps.colVar (V (Proc.devRef .tc main_v50)) (V (Proc.devRef .tc main_v53))) (shapeCast _ (extractStridedSlice S1x128 ![0, 0] (V (Proc.devRef .tc main_arg13)) slices_S3x128_S1x128_0_0) shapeCasts_S1x128_S128) (shapeCast _ (extractStridedSlice S1x128 ![0, 0] (V (Proc.devRef .tc main_arg14)) slices_S3x128_S1x128_0_0) shapeCasts_S1x128_S128) := by
  simp only [after_cons, after_nil]
  rfl

set_option maxRecDepth 8192 in
theorem p4_v106 (V : Valuation τ sig (Elt F)) :
    after p4 V (Proc.devRef .tc main_v106)
      = pre (V (Proc.devRef .tc main_v80)) (Cert.RefOps.agg (V (Proc.devRef .tc main_v3)) (Cert.RefOps.msg (V (Proc.devRef .tc main_arg3)) (Cert.RefOps.take (V (Proc.devRef .tc main_v80)) (V (Proc.devRef .tc main_v1))) (shapeCast _ (extractStridedSlice S1x16x128 ![1, 0, 0] (V (Proc.devRef .tc main_arg6)) slices_S3x16x128_S1x16x128_1_0_0) shapeCasts_S1x16x128_S16x128) (shapeCast _ (extractStridedSlice S1x128 ![1, 0] (V (Proc.devRef .tc main_arg7)) slices_S3x128_S1x128_1_0) shapeCasts_S1x128_S128))) (shapeCast _ (extractStridedSlice S1 ![1] (V (Proc.devRef .tc main_arg12)) slices_S3_S1_1) shapeCasts_S1_S_) := by
  simp only [after_cons, after_nil]
  rfl

set_option maxRecDepth 8192 in
theorem p5_v123 (V : Valuation τ sig (Elt F)) :
    after p5 V (Proc.devRef .tc main_v123)
      = post (V (Proc.devRef .tc main_v106)) (shapeCast _ (extractStridedSlice S1x128x256 ![1, 0, 0] (V (Proc.devRef .tc main_arg8)) slices_S3x128x256_S1x128x256_1_0_0) shapeCasts_S1x128x256_S128x256) (shapeCast _ (extractStridedSlice S1x256 ![1, 0] (V (Proc.devRef .tc main_arg9)) slices_S3x256_S1x256_1_0) shapeCasts_S1x256_S256) (shapeCast _ (extractStridedSlice S1x256x128 ![1, 0, 0] (V (Proc.devRef .tc main_arg10)) slices_S3x256x128_S1x256x128_1_0_0) shapeCasts_S1x256x128_S256x128) (shapeCast _ (extractStridedSlice S1x128 ![1, 0] (V (Proc.devRef .tc main_arg11)) slices_S3x128_S1x128_1_0) shapeCasts_S1x128_S128) := by
  simp only [after_cons, after_nil]
  rfl

set_option maxRecDepth 8192 in
theorem p6_v153 (V : Valuation τ sig (Elt F)) :
    after p6 V (Proc.devRef .tc main_v153)
      = Cert.RefOps.bn (V (Proc.devRef .tc main_v123)) (Cert.RefOps.colMean (V (Proc.devRef .tc main_v123))) (Cert.RefOps.colVar (V (Proc.devRef .tc main_v123)) (Cert.RefOps.colMean (V (Proc.devRef .tc main_v123)))) (shapeCast _ (extractStridedSlice S1x128 ![1, 0] (V (Proc.devRef .tc main_arg13)) slices_S3x128_S1x128_1_0) shapeCasts_S1x128_S128) (shapeCast _ (extractStridedSlice S1x128 ![1, 0] (V (Proc.devRef .tc main_arg14)) slices_S3x128_S1x128_1_0) shapeCasts_S1x128_S128) := by
  simp only [after_cons, after_nil]
  rfl

theorem p7_v161 (V : Valuation τ sig (Elt F)) :
    after p7 V (Proc.devRef .tc main_v161)
      = eproj (V (Proc.devRef .tc main_arg3)) (shapeCast _ (extractStridedSlice S1x16x128 ![2, 0, 0] (V (Proc.devRef .tc main_arg6)) slices_S3x16x128_S1x16x128_2_0_0) shapeCasts_S1x16x128_S16x128) (shapeCast _ (extractStridedSlice S1x128 ![2, 0] (V (Proc.devRef .tc main_arg7)) slices_S3x128_S1x128_2_0) shapeCasts_S1x128_S128) := by
  simp only [after_cons, after_nil]
  rfl

set_option maxRecDepth 8192 in
theorem p8_v196 (V : Valuation τ sig (Elt F)) :
    after p8 V (Proc.devRef .tc main_v196)
      = Cert.RefOps.mlp (V (Proc.devRef .tc main_v153)) (Cert.RefOps.agg (V (Proc.devRef .tc main_v3)) (msgOf (Cert.RefOps.take (V (Proc.devRef .tc main_v153)) (V (Proc.devRef .tc main_v1))) (V (Proc.devRef .tc main_v161))))
          (shapeCast _ (extractStridedSlice S1 ![2] (V (Proc.devRef .tc main_arg12)) slices_S3_S1_2) shapeCasts_S1_S_) (shapeCast _ (extractStridedSlice S1x128x256 ![2, 0, 0] (V (Proc.devRef .tc main_arg8)) slices_S3x128x256_S1x128x256_2_0_0) shapeCasts_S1x128x256_S128x256) (shapeCast _ (extractStridedSlice S1x256 ![2, 0] (V (Proc.devRef .tc main_arg9)) slices_S3x256_S1x256_2_0) shapeCasts_S1x256_S256) (shapeCast _ (extractStridedSlice S1x256x128 ![2, 0, 0] (V (Proc.devRef .tc main_arg10)) slices_S3x256x128_S1x256x128_2_0_0) shapeCasts_S1x256x128_S256x128) (shapeCast _ (extractStridedSlice S1x128 ![2, 0] (V (Proc.devRef .tc main_arg11)) slices_S3x128_S1x128_2_0) shapeCasts_S1x128_S128) := by
  simp only [after_cons, after_nil]
  rfl

theorem p9_v206 (V : Valuation τ sig (Elt F)) :
    after p9 V (Proc.devRef .tc main_v206)
      = Cert.RefOps.colVar (V (Proc.devRef .tc main_v196)) (Cert.RefOps.colMean (V (Proc.devRef .tc main_v196))) := by
  simp only [after_cons, after_nil]
  rfl

theorem p9_v211 (V : Valuation τ sig (Elt F)) :
    after p9 V (Proc.devRef .tc main_v211)
      = subf (V (Proc.devRef .tc main_v196)) (Cert.RefOps.rows128 (Cert.RefOps.colMean (V (Proc.devRef .tc main_v196)))) := by
  simp only [after_cons, after_nil]
  rfl

theorem p9_v213 (V : Valuation τ sig (Elt F)) :
    after p9 V (Proc.devRef .tc main_v213)
      = Cert.RefOps.rows128 (shapeCast _ (extractStridedSlice S1x128 ![2, 0] (V (Proc.devRef .tc main_arg13)) slices_S3x128_S1x128_2_0) shapeCasts_S1x128_S128) := by
  simp only [after_cons, after_nil]
  rfl

theorem p10_v226 (V : Valuation τ sig (Elt F)) :
    after p10 V (Proc.devRef .tc main_v226)
      = bnOf (V (Proc.devRef .tc main_v213)) (V (Proc.devRef .tc main_v211)) (V (Proc.devRef .tc main_v206)) (shapeCast _ (extractStridedSlice S1x128 ![2, 0] (V (Proc.devRef .tc main_arg14)) slices_S3x128_S1x128_2_0) shapeCasts_S1x128_S128) := by
  simp only [after_cons, after_nil]
  rfl

theorem p11_v242 (V : Valuation τ sig (Elt F)) :
    after p11 V (Proc.devRef .tc main_v242)
      = Cert.RefOps.fin (Cert.RefOps.pool (V (Proc.devRef .tc main_arg2)) (V (Proc.devRef .tc main_v226))) (V (Proc.devRef .tc main_arg15)) (V (Proc.devRef .tc main_arg16)) := by
  simp only [after_cons, after_nil]
  rfl

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16]

structure Inv (V0 V : Valuation τ sig (Elt F)) : Prop where
  args : ∀ r ∈ argRefs, V (Proc.devRef .tc r) = V0 (Proc.devRef .tc r)
  src : V (Proc.devRef .tc main_v1) = Cert.RefOps.srcOf (V0 (Proc.devRef .tc main_arg1))
  dst : V (Proc.devRef .tc main_v3) = Cert.RefOps.dstOf (V0 (Proc.devRef .tc main_arg1))

theorem Inv.step {V0 V : Valuation τ sig (Elt F)} (hI : Inv V0 V) (p : List (HloOp τ sig (Elt F))) (W : List (Ref sig .tc))
    (hfr : ∀ {r : Ref sig .tc}, r ∉ W → after p V (Proc.devRef .tc r) = V (Proc.devRef .tc r))
    (hd : ∀ r ∈ main_v1 :: main_v3 :: argRefs, r ∉ W := by decide) : Inv V0 (after p V) where
  args r hr := (hfr (hd r (List.mem_cons_of_mem _ (List.mem_cons_of_mem _ hr)))).trans (hI.args r hr)
  src := (hfr (hd main_v1 List.mem_cons_self)).trans hI.src
  dst := (hfr (hd main_v3 (List.mem_cons_of_mem _ List.mem_cons_self))).trans hI.dst

theorem Inv.arg {V0 V : Valuation τ sig (Elt F)} (hI : Inv V0 V) (r : Ref sig .tc) (hr : r ∈ argRefs := by decide) :
    V (Proc.devRef .tc r) = V0 (Proc.devRef .tc r) := hI.args r hr

-- A layer function at the argument buffers that hold its source and destination lists, edge features and stacked parameters.
abbrev layerAt (L : FVec F S50000x128 .f32 → IVec S2x800000 32 → FVec F S800000x16 .f32 → FVec F S3x16x128 .f32 → FVec F S3x128 .f32
      → FVec F S3x128x256 .f32 → FVec F S3x256 .f32 → FVec F S3x256x128 .f32 → FVec F S3x128 .f32 → FVec F S3 .f32 → FVec F S3x128 .f32
      → FVec F S3x128 .f32 → FVec F S50000x128 .f32)
    (V0 : Valuation τ sig (Elt F)) (h : FVec F S50000x128 .f32) : FVec F S50000x128 .f32 :=
  L h (V0 (Proc.devRef .tc main_arg1)) (V0 (Proc.devRef .tc main_arg3)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))

theorem layer0_step {V0 V : Valuation τ sig (Elt F)} (hI : Inv V0 V) :
    after p3 (after p2 (after p1 V)) (Proc.devRef .tc main_v80)
        = layerAt Cert.RefOps.layer0 V0 (V (Proc.devRef .tc main_v7))
      ∧ Inv V0 (after p3 (after p2 (after p1 V))) := by
  have I1 := hI.step p1 W1 (p1_frame V)
  have I2 := I1.step p2 W2 (p2_frame _)
  have I3 := I2.step p3 W3 (p3_frame _)
  refine ⟨?_, I3⟩
  rw [p3_v80, p2_v53, p2_frame _ (r := main_v50) (by decide), p1_v50,
    I2.arg main_arg13, I2.arg main_arg14,
    hI.arg main_arg3, hI.arg main_arg6, hI.arg main_arg7, hI.arg main_arg8, hI.arg main_arg9, hI.arg main_arg10, hI.arg main_arg11, hI.arg main_arg12, hI.src, hI.dst]
  rfl

theorem layer1_step {V0 V : Valuation τ sig (Elt F)} (hI : Inv V0 V) :
    after p6 (after p5 (after p4 V)) (Proc.devRef .tc main_v153)
        = layerAt Cert.RefOps.layer1 V0 (V (Proc.devRef .tc main_v80))
      ∧ Inv V0 (after p6 (after p5 (after p4 V))) := by
  have I4 := hI.step p4 W4 (p4_frame V)
  have I5 := I4.step p5 W5 (p5_frame _)
  have I6 := I5.step p6 W6 (p6_frame _)
  refine ⟨?_, I6⟩
  rw [p6_v153, p5_v123, p4_v106,
    I5.arg main_arg13, I5.arg main_arg14,
    I4.arg main_arg8, I4.arg main_arg9, I4.arg main_arg10, I4.arg main_arg11,
    hI.arg main_arg3, hI.arg main_arg6, hI.arg main_arg7, hI.arg main_arg12, hI.src, hI.dst]
  rfl

theorem layer2_step {V0 V : Valuation τ sig (Elt F)} (hI : Inv V0 V) :
    after p10 (after p9 (after p8 (after p7 V))) (Proc.devRef .tc main_v226)
        = layerAt Cert.RefOps.layer2 V0 (V (Proc.devRef .tc main_v153))
      ∧ Inv V0 (after p10 (after p9 (after p8 (after p7 V)))) := by
  have I7 := hI.step p7 W7 (p7_frame V)
  have I8 := I7.step p8 W8 (p8_frame _)
  have I9 := I8.step p9 W9 (p9_frame _)
  have I10 := I9.step p10 W10 (p10_frame _)
  refine ⟨?_, I10⟩
  rw [p10_v226, p9_v213, p9_v211, p9_v206, p8_v196, p7_v161, p7_frame V (r := main_v153) (by decide),
    I9.arg main_arg14, I8.arg main_arg13,
    I7.arg main_arg8, I7.arg main_arg9, I7.arg main_arg10, I7.arg main_arg11, I7.arg main_arg12, I7.src, I7.dst,
    hI.arg main_arg3, hI.arg main_arg6, hI.arg main_arg7]
  rfl

-- The three layer steps chain through the invariant; the last stage reads the pooled result.
theorem result_eq (V0 : Valuation τ sig (Elt F)) :
    after p11 (after p10 (after p9 (after p8 (after p7 (after p6 (after p5 (after p4 (after p3 (after p2 (after p1 (after p0 V0)))))))))))
        (Proc.devRef .tc main_v242)
        = Cert.RefOps.top (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))
      ∧ Inv V0 (after p11 (after p10 (after p9 (after p8 (after p7 (after p6 (after p5 (after p4 (after p3 (after p2 (after p1 (after p0 V0)))))))))))) := by
  have hd0 : ∀ r ∈ argRefs, r ∉ W0 := by decide
  have I0 : Inv V0 (after p0 V0) := ⟨fun r hr => p0_frame V0 (hd0 r hr), p0_v1 V0, p0_v3 V0⟩
  obtain ⟨e1, I3⟩ := layer0_step I0
  obtain ⟨e2, I6⟩ := layer1_step I3
  obtain ⟨e3, I10⟩ := layer2_step I6
  have I11 := I10.step p11 W11 (p11_frame _)
  refine ⟨?_, I11⟩
  rw [p11_v242, e3, e2, e1, p0_v7, I10.arg main_arg2, I10.arg main_arg15, I10.arg main_arg16]
  rfl

end Cert.ReferenceIdeal.RefRun

end
-- ==== Proof.RefRun.lean ====
import proofs.«407318_j78761110274299_1_alg».proof.Proof.Gen.ReferenceIdeal
import proofs.«407318_j78761110274299_1_alg».proof.Proof.RefOps
import Idealize.ShloMosaic.Lib.StableHlo.Run
import Idealize.ShloMosaic.Lib.Pipeline.Frame
import proofs.«407318_j78761110274299_1_alg».proof.Proof.RefRunMain
import proofs.«407318_j78761110274299_1_alg».proof.Proof.RefRunVal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem after_ops (V : Valuation τ sig (Elt F)) :
    after (p0 ++ (p1 ++ (p2 ++ (p3 ++ (p4 ++ (p5 ++ (p6 ++ (p7 ++ (p8 ++ (p9 ++ (p10 ++ (p11)))))))))))) V
      = after p11 (after p10 (after p9 (after p8 (after p7 (after p6 (after p5 (after p4 (after p3 (after p2 (after p1 (after p0 V))))))))))) := by
  simp only [after_append]

set_option maxRecDepth 8192 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v242) = Cert.RefOps.top (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun s h c => by
      have hA := after_ops (launchContents m c)
      obtain ⟨hR, hI⟩ := result_eq (launchContents m c)
      have ha : ∀ r ∈ argRefs, s.2.mem ((c.tc : Thread nD τ).loc r) = m ((c.tc : Thread nD τ).loc r) :=
        fun r hr => (h c r).trans ((congrFun hA _).trans (hI.args r hr))
      exact ⟨(h c main_v242).trans ((congrFun hA _).trans hR), ha _ (by decide), ha _ (by decide), ha _ (by decide), ha _ (by decide),
        ha _ (by decide), ha _ (by decide), ha _ (by decide), ha _ (by decide), ha _ (by decide), ha _ (by decide), ha _ (by decide),
        ha _ (by decide), ha _ (by decide), ha _ (by decide), ha _ (by decide), ha _ (by decide), ha _ (by decide)⟩)
    (run_seq scopedRefs_eq scopedSems_eq defs main (fun _ => p0 ++ (p1 ++ (p2 ++ (p3 ++ (p4 ++ (p5 ++ (p6 ++ (p7 ++ (p8 ++ (p9 ++ (p10 ++ (p11)))))))))))) main_eq (fun _ => ops_sub) m ρ
      (fun _ => ops_fresh))

end Cert.ReferenceIdeal.RefRun

end
-- ==== Proof.PreRange.lean ====
import proofs.«407318_j78761110274299_1_alg».proof.Pre_finite_inputs
import proofs.«407318_j78761110274299_1_alg».proof.Proof.Gen.Pre_finite_inputs
import proofs.«407318_j78761110274299_1_alg».proof.Proof.RefOps
import Idealize.ShloMosaic.Lib.ReduceAll
import Idealize.ShloMosaic.Lib.ValueIdx
import Idealize.ShloMosaic.Lib.Affine

noncomputable section

namespace Cert.KernelIdeal.KV

open Idealize.ShloMosaic
open Cert.Pre_finite_inputs

variable [Cert.Pre_finite_inputs.Facts]

theorem part4_bounds {F : FTy → Type} [FloatOps F] (a1 : IVec S2x800000 32) (a16 : FVec F S16 .f32) (v63 v67 : IVec S_ 1)
    (h : fn_part4 (F := F) a1 a16 v63 v67 ValueIdx.ix0 = 1#1) :
    Host.reduce IntOp.andi
        (cmpi .sge
          (shapeCast S800000 (extractStridedSlice S1x800000 ![0, 0] a1 Facts.slices_S2x800000_S1x800000_0_0)
            Facts.shapeCasts_S1x800000_S800000)
          (broadcastInDim S800000 ![] Facts.bcast_S_S800000 (constantI S_ 32 0#32)))
        (constantI S_ 1 1#1) Facts.reducesTo_S800000_S_d0 Facts.h_S_ ValueIdx.ix0 = 1#1
      ∧ Host.reduce IntOp.andi
        (cmpi .slt
          (shapeCast S800000 (extractStridedSlice S1x800000 ![0, 0] a1 Facts.slices_S2x800000_S1x800000_0_0)
            Facts.shapeCasts_S1x800000_S800000)
          (broadcastInDim S800000 ![] Facts.bcast_S_S800000 (constantI S_ 32 50000#32)))
        (constantI S_ 1 1#1) Facts.reducesTo_S800000_S_d0 Facts.h_S_ ValueIdx.ix0 = 1#1 := by
  obtain ⟨h79, h84⟩ := IntOp.andi_eq_one.1 h
  obtain ⟨-, h78⟩ := IntOp.andi_eq_one.1 h79
  exact ⟨h78, h84⟩

/-- A conjunction that is 1 has every conjunct 1; a signed compare that is 1 is the order of the values. -/
theorem src_in_range
    (a0 : FVec Ideal S50000x64 .f32) (a1 : IVec S2x800000 32) (a2 : IVec S50000 32) (a3 : FVec Ideal S800000x16 .f32)
    (a4 : FVec Ideal S64x128 .f32) (a5 : FVec Ideal S128 .f32) (a6 : FVec Ideal S3x16x128 .f32) (a7 : FVec Ideal S3x128 .f32)
    (a8 : FVec Ideal S3x128x256 .f32) (a9 : FVec Ideal S3x256 .f32) (a10 : FVec Ideal S3x256x128 .f32)
    (a11 : FVec Ideal S3x128 .f32) (a12 : FVec Ideal S3 .f32) (a13 : FVec Ideal S3x128 .f32) (a14 : FVec Ideal S3x128 .f32)
    (a15 : FVec Ideal S128x16 .f32) (a16 : FVec Ideal S16 .f32)
    (hpre : Cert.Pre_finite_inputs.fn (F := Ideal) a0 a1 a2 a3 a4 a5 a6 a7 a8 a9 a10 a11 a12 a13 a14 a15 a16 = (fun _ => 1#1)) :
    ∀ e : Fin 800000, 0 ≤ (Cert.RefOps.srcOf a1 (ValueIdx.ix1 e)).toInt ∧ (Cert.RefOps.srcOf a1 (ValueIdx.ix1 e)).toInt < 50000 := by
  intro e
  have h : Cert.Pre_finite_inputs.fn (F := Ideal) a0 a1 a2 a3 a4 a5 a6 a7 a8 a9 a10 a11 a12 a13 a14 a15 a16 ValueIdx.ix0 = 1#1 :=
    congrFun hpre ValueIdx.ix0

  obtain ⟨v63, v67, hfn⟩ : ∃ v63 v67 : IVec S_ 1,
      Cert.Pre_finite_inputs.fn (F := Ideal) a0 a1 a2 a3 a4 a5 a6 a7 a8 a9 a10 a11 a12 a13 a14 a15 a16
        = fn_part4 (F := Ideal) a1 a16 v63 v67 := ⟨_, _, rfl⟩
  rw [hfn] at h
  obtain ⟨hge, hlt⟩ := part4_bounds a1 a16 v63 v67 h

  have hge' := Host.reduce_andi_eq_one _ _ _ _ _ hge (ValueIdx.ix1 e) (funext fun d => d.elim0)
  have hlt' := Host.reduce_andi_eq_one _ _ _ _ _ hlt (ValueIdx.ix1 e) (funext fun d => d.elim0)

  have hsrc : shapeCast S800000 (extractStridedSlice S1x800000 ![0, 0] a1 Facts.slices_S2x800000_S1x800000_0_0)
      Facts.shapeCasts_S1x800000_S800000 = Cert.RefOps.srcOf a1 := rfl
  have g0 : IntOp.cmpi .sge (Cert.RefOps.srcOf a1 (ValueIdx.ix1 e)) 0#32 = 1#1 := by rw [← hsrc]; exact hge'
  have g5 : IntOp.cmpi .slt (Cert.RefOps.srcOf a1 (ValueIdx.ix1 e)) 50000#32 = 1#1 := by rw [← hsrc]; exact hlt'
  have e0 : (0#32 : BitVec 32).toInt = 0 := by decide
  have e5 : (50000#32 : BitVec 32).toInt = 50000 := by decide
  rw [IntOp.cmpi_sge, e0] at g0
  rw [IntOp.cmpi_slt, e5] at g5
  exact ⟨g0, g5⟩

end Cert.KernelIdeal.KV

end
-- ==== Proof.lean ====
import proofs.«407318_j78761110274299_1_alg».proof.Defs
import proofs.«407318_j78761110274299_1_alg».proof.Proof.Gen.Kernel
import proofs.«407318_j78761110274299_1_alg».proof.Proof.Gen.Kernel.Skeleton
import proofs.«407318_j78761110274299_1_alg».proof.Proof.Gen.Kernel.Launch
import proofs.«407318_j78761110274299_1_alg».proof.Proof.Gen.Kernel.Points
import proofs.«407318_j78761110274299_1_alg».proof.Proof.Gen.Kernel.Frame
import proofs.«407318_j78761110274299_1_alg».proof.Proof.Gen.KernelIdeal
import proofs.«407318_j78761110274299_1_alg».proof.Proof.Gen.KernelIdeal.Skeleton
import proofs.«407318_j78761110274299_1_alg».proof.Proof.Gen.KernelIdeal.Launch
import proofs.«407318_j78761110274299_1_alg».proof.Proof.Gen.KernelIdeal.Points
import proofs.«407318_j78761110274299_1_alg».proof.Proof.Gen.KernelIdeal.Frame
import proofs.«407318_j78761110274299_1_alg».proof.Proof.Gen.ReferenceIdeal
import proofs.«407318_j78761110274299_1_alg».proof.Proof.Gen.Pre_finite_inputs
import proofs.«407318_j78761110274299_1_alg».proof.Proof.RunK
import proofs.«407318_j78761110274299_1_alg».proof.Proof.KChain
import proofs.«407318_j78761110274299_1_alg».proof.Proof.RefRun
import proofs.«407318_j78761110274299_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the same composition of the stage functions of the arguments. -/
theorem algebraic : Cert.algebraic_KernelIdeal_ReferenceIdeal := by
  intro m ρ m' ρ' hpre hagree
  refine ⟨fun c => Cert.RefOps.top (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.KV.result_eq m ρ c (Cert.KernelIdeal.KV.src_in_range _ _ _ _ _ _ _ _ _ _ _ _ _ _ _ _ _ (hpre c))), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
